-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x256 : Shape := ⟨2, ![8192, 256]⟩
abbrev S1280x256 : Shape := ⟨2, ![1280, 256]⟩
abbrev S256 : Shape := ⟨1, ![256]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S1280x256 : S_.BroadcastsInDim S1280x256 (![] : Fin 0 → Fin S1280x256.rank)
  reducesTo_S1280x256_S_d0_1 : S1280x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S8192x8192 .f32) (main_arg1 : FVec F S8192x256 .f32) (main_arg2 : FVec F S1280x256 .f32) (main_arg3 : FVec F S256 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S1280x256 .f32 := Host.absf main_arg2
  let main_cst_2 : FVec F S_ .f32 := constant S_ .f32 0x7F800000#32
  let main_v10 : FVec F S1280x256 .f32 := broadcastInDim S1280x256 ![] bcast_S_S1280x256 main_cst_2
  let main_v11 : IVec S1280x256 1 := cmpf .olt main_v9 main_v10
  let main_c_3 : IVec S_ 1 := constantI S_ 1 1#1
  let main_v12 : IVec S_ 1 := (fun x v => Host.reduce IntOp.andi x v reducesTo_S1280x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S8192x8192 : Shape := ⟨2, ![8192, 8192]⟩
abbrev S8192x256 : Shape := ⟨2, ![8192, 256]⟩
abbrev S1280x256 : Shape := ⟨2, ![1280, 256]⟩
abbrev S256 : Shape := ⟨1, ![256]⟩
abbrev S1024x2048 : Shape := ⟨2, ![1024, 2048]⟩
abbrev S2048x256 : Shape := ⟨2, ![2048, 256]⟩
abbrev S1024x256 : Shape := ⟨2, ![1024, 256]⟩
abbrev S1x256 : Shape := ⟨2, ![1, 256]⟩
abbrev S256x256 : Shape := ⟨2, ![256, 256]⟩

abbrev nBuf : Space → Nat
  | .hbm => 10
  | .vmem => 50
  | .smem => 0
  | _ => 0

abbrev bufTy : (tb : Table) → Fin (tcTables nBuf tb) → BufTy
  | .hbm, ⟨0, _⟩ => ⟨S8192x8192, .f32⟩
  | .hbm, ⟨1, _⟩ => ⟨S8192x256, .f32⟩
  | .hbm, ⟨2, _⟩ => ⟨S1280x256, .f32⟩
  | .hbm, ⟨3, _⟩ => ⟨S256, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S1x256, .f32⟩
  | .hbm, ⟨9, _⟩ => ⟨S8192x256, .f32⟩
  | .local _ .vmem, ⟨0, _⟩ => ⟨S1024x2048, .f32⟩
  | .local _ .vmem, ⟨1, _⟩ => ⟨S1024x2048, .f32⟩
  | .local _ .vmem, ⟨2, _⟩ => ⟨S2048x256, .f32⟩
  | .local _ .vmem, ⟨3, _⟩ => ⟨S2048x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x2048, .f32⟩
  | .local _ .vmem, ⟨10, _⟩ => ⟨S1024x2048, .f32⟩
  | .local _ .vmem, ⟨11, _⟩ => ⟨S2048x256, .f32⟩
  | .local _ .vmem, ⟨12, _⟩ => ⟨S2048x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x2048, .f32⟩
  | .local _ .vmem, ⟨19, _⟩ => ⟨S1024x2048, .f32⟩
  | .local _ .vmem, ⟨20, _⟩ => ⟨S2048x256, .f32⟩
  | .local _ .vmem, ⟨21, _⟩ => ⟨S2048x256, .f32⟩
  | .local _ .vmem, ⟨22, _⟩ => ⟨S1024x256, .f32⟩
  | .local _ .vmem, ⟨23, _⟩ => ⟨S1024x256, .f32⟩
  | .local _ .vmem, ⟨24, _⟩ => ⟨S1024x256, .f32⟩
  | .local _ .vmem, ⟨25, _⟩ => ⟨S1024x256, .f32⟩
  | .local _ .vmem, ⟨26, _⟩ => ⟨S1024x256, .f32⟩
  | .local _ .vmem, ⟨27, _⟩ => ⟨S1024x2048, .f32⟩
  | .local _ .vmem, ⟨28, _⟩ => ⟨S1024x2048, .f32⟩
  | .local _ .vmem, ⟨29, _⟩ => ⟨S2048x256, .f32⟩
  | .local _ .vmem, ⟨30, _⟩ => ⟨S2048x256, .f32⟩
  | .local _ .vmem, ⟨31, _⟩ => ⟨S1024x256, .f32⟩
  | .local _ .vmem, ⟨32, _⟩ => ⟨S1024x256, .f32⟩
  | .local _ .vmem, ⟨33, _⟩ => ⟨S1024x256, .f32⟩
  | .local _ .vmem, ⟨34, _⟩ => ⟨S1024x256, .f32⟩
  | .local _ .vmem, ⟨35, _⟩ => ⟨S1024x256, .f32⟩
  | .local _ .vmem, ⟨36, _⟩ => ⟨S1024x256, .f32⟩
  | .local _ .vmem, ⟨37, _⟩ => ⟨S1024x256, .f32⟩
  | .local _ .vmem, ⟨38, _⟩ => ⟨S1024x256, .f32⟩
  | .local _ .vmem, ⟨39, _⟩ => ⟨S1024x256, .f32⟩
  | .local _ .vmem, ⟨40, _⟩ => ⟨S1024x256, .f32⟩
  | .local _ .vmem, ⟨41, _⟩ => ⟨S1024x256, .f32⟩
  | .local _ .vmem, ⟨42, _⟩ => ⟨S1024x256, .f32⟩
  | .local _ .vmem, ⟨43, _⟩ => ⟨S1024x256, .f32⟩
  | .local _ .vmem, ⟨44, _⟩ => ⟨S1024x256, .f32⟩
  | .local _ .vmem, ⟨45, _⟩ => ⟨S1024x256, .f32⟩
  | .local _ .vmem, ⟨46, _⟩ => ⟨S1280x256, .f32⟩
  | .local _ .vmem, ⟨47, _⟩ => ⟨S1x256, .f32⟩
  | .local _ .vmem, ⟨48, _⟩ => ⟨S1024x256, .f32⟩
  | .local _ .vmem, ⟨49, _⟩ => ⟨S1024x256, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_scratch0 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg3_1 : Ref sig .tc := ⟨.vmem, 43, rfl⟩
abbrev cc4_stg4_0 : Ref sig .tc := ⟨.vmem, 44, rfl⟩
abbrev cc4_stg4_1 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg7_0 : Ref sig .tc := ⟨.vmem, 48, rfl⟩
abbrev cc4_stg7_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39
abbrev cc4_sem4_0 : DmaSem sig := 40
abbrev cc4_sem4_1 : DmaSem sig := 41
abbrev cc4_sem5_0 : DmaSem sig := 42
abbrev cc4_sem6_0 : DmaSem sig := 43
abbrev cc4_sem7_0 : DmaSem sig := 44
abbrev cc4_sem7_1 : DmaSem sig := 45

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 4], ![false, false]⟩

def k2_cond2 (i : grid2.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![8, 4], ![false, false]⟩

def k3_cond2 (i : grid3.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1024x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1024x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1024x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1024x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1024x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1280x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S1024x256 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  shapeCasts_S256_S1x256 : S256.ShapeCasts S1x256
  inb_S1280x256_S256x256_0_0 : ∀ a, (![0, 0] : Fin 2 → Nat) a + S256x256.size a ≤ S1280x256.size a
  h_S256x256 : 0 < S256x256.numel
  inb_S1280x256_S256x256_256_0 : ∀ a, (![256, 0] : Fin 2 → Nat) a + S256x256.size a ≤ S1280x256.size a
  inb_S1280x256_S256x256_512_0 : ∀ a, (![512, 0] : Fin 2 → Nat) a + S256x256.size a ≤ S1280x256.size a
  inb_S1280x256_S256x256_768_0 : ∀ a, (![768, 0] : Fin 2 → Nat) a + S256x256.size a ≤ S1280x256.size a
  inb_S1280x256_S256x256_1024_0 : ∀ a, (![1024, 0] : Fin 2 → Nat) a + S256x256.size a ≤ S1280x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x2048_S2048x256_S1024x256_1_0_0_1_n_n_wf : DotDims.WF S1024x2048 S2048x256 S1024x256 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x256.size a
  hwx0_1 : ∀ i : grid0.Coords, EltTy.bits .f32 = 32 ∨ (Rect.block (s := S8192x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .f32 = 32 ∨ (Rect.block (s := S8192x256) S1024x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S8192x256.size a
  hwx1_1 : ∀ i : grid1.Coords, EltTy.bits .f32 = 32 ∨ (Rect.block (s := S8192x256) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .f32 = 32 ∨ (Rect.block (s := S8192x256) S1024x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x256.size a
  hwx1_3 : ∀ i : grid1.Coords, EltTy.bits .f32 = 32 ∨ (Rect.block (s := S8192x256) S1024x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x8192.size a
  hwx2_0 : ∀ i : grid2.Coords, EltTy.bits .f32 = 32 ∨ (Rect.block (s := S8192x8192) S1024x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S8192x256.size a
  hwx2_1 : ∀ i : grid2.Coords, EltTy.bits .f32 = 32 ∨ (Rect.block (s := S8192x256) S2048x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S8192x256.size a
  hwx2_2 : ∀ i : grid2.Coords, EltTy.bits .f32 = 32 ∨ (Rect.block (s := S8192x256) S1024x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x256.size a ≤ S8192x256.size a
  hwx2_3 : ∀ i : grid2.Coords, EltTy.bits .f32 = 32 ∨ (Rect.block (s := S8192x256) S1024x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S8192x8192.size a
  hwx3_0 : ∀ i : grid3.Coords, EltTy.bits .f32 = 32 ∨ (Rect.block (s := S8192x8192) S1024x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S8192x256.size a
  hwx3_1 : ∀ i : grid3.Coords, EltTy.bits .f32 = 32 ∨ (Rect.block (s := S8192x256) S2048x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x256.size a ≤ S8192x256.size a
  hwx3_2 : ∀ i : grid3.Coords, EltTy.bits .f32 = 32 ∨ (Rect.block (s := S8192x256) S1024x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x256.size a ≤ S8192x256.size a
  hwx3_3 : ∀ i : grid3.Coords, EltTy.bits .f32 = 32 ∨ (Rect.block (s := S8192x256) S1024x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x256.size a ≤ S8192x256.size a
  hwx4_0 : ∀ i : grid4.Coords, EltTy.bits .f32 = 32 ∨ (Rect.block (s := S8192x256) S1024x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x256.size a ≤ S8192x256.size a
  hwx4_1 : ∀ i : grid4.Coords, EltTy.bits .f32 = 32 ∨ (Rect.block (s := S8192x256) S1024x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x256.size a ≤ S8192x256.size a
  hwx4_2 : ∀ i : grid4.Coords, EltTy.bits .f32 = 32 ∨ (Rect.block (s := S8192x256) S1024x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x256.size a ≤ S8192x256.size a
  hwx4_3 : ∀ i : grid4.Coords, EltTy.bits .f32 = 32 ∨ (Rect.block (s := S8192x256) S1024x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1024x256.size a ≤ S8192x256.size a
  hwx4_4 : ∀ i : grid4.Coords, EltTy.bits .f32 = 32 ∨ (Rect.block (s := S8192x256) S1024x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1280x256.size a ≤ S1280x256.size a
  hwx4_5 : ∀ i : grid4.Coords, EltTy.bits .f32 = 32 ∨ (Rect.block (s := S1280x256) S1280x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S1024x256.size a ≤ S8192x256.size a
  hwx4_7 : ∀ i : grid4.Coords, EltTy.bits .f32 = 32 ∨ (Rect.block (s := S8192x256) S1024x256.size (cc4_transform_7 i) (hinb4_7 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg0) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0) S1024x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1024x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_arg0) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S2048x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v1) S1024x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v3) S1024x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_arg1) S1024x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v0) S1024x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v1) S1024x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v2) S1024x256.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v3) S1024x256.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_arg2) S1280x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v4) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v5) S1024x256.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S8192x8192 : Shape := ⟨2, ![8192, 8192]⟩
abbrev S8192x256 : Shape := ⟨2, ![8192, 256]⟩
abbrev S1280x256 : Shape := ⟨2, ![1280, 256]⟩
abbrev S256 : Shape := ⟨1, ![256]⟩
abbrev S_ : Shape := ⟨0, ![]⟩
abbrev S8192x1280 : Shape := ⟨2, ![8192, 1280]⟩
abbrev S1x256 : Shape := ⟨2, ![1, 256]⟩

abbrev nBuf : Space → Nat
  | .hbm => 28
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x256, .f32⟩
  | .hbm, ⟨2, _⟩ => ⟨S1280x256, .f32⟩
  | .hbm, ⟨3, _⟩ => ⟨S256, .f32⟩
  | .hbm, ⟨4, _⟩ => ⟨S8192x256, .f32⟩
  | .hbm, ⟨5, _⟩ => ⟨S8192x256, .f32⟩
  | .hbm, ⟨6, _⟩ => ⟨S_, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S_, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S8192x256, .f32⟩
  | .hbm, ⟨16, _⟩ => ⟨S_, .f32⟩
  | .hbm, ⟨17, _⟩ => ⟨S8192x256, .f32⟩
  | .hbm, ⟨18, _⟩ => ⟨S8192x256, .f32⟩
  | .hbm, ⟨19, _⟩ => ⟨S8192x256, .f32⟩
  | .hbm, ⟨20, _⟩ => ⟨S8192x1280, .f32⟩
  | .hbm, ⟨21, _⟩ => ⟨S8192x256, .f32⟩
  | .hbm, ⟨22, _⟩ => ⟨S1x256, .f32⟩
  | .hbm, ⟨23, _⟩ => ⟨S8192x256, .f32⟩
  | .hbm, ⟨24, _⟩ => ⟨S8192x256, .f32⟩
  | .hbm, ⟨25, _⟩ => ⟨S_, .f32⟩
  | .hbm, ⟨26, _⟩ => ⟨S8192x256, .f32⟩
  | .hbm, ⟨27, _⟩ => ⟨S8192x256, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S_S8192x256 : S_.BroadcastsInDim S8192x256 (![] : Fin 0 → Fin S8192x256.rank)
  concatenates_S8192x256_S8192x256_S8192x256_S8192x256_S8192x256_S8192x1280_d1 : Shape.Concatenates [S8192x256, S8192x256, S8192x256, S8192x256, S8192x256] S8192x1280 1
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  dot_S8192x8192_S8192x256_S8192x256_1_0_0_1_n_n_wf : DotDims.WF S8192x8192 S8192x256 S8192x256 [1] [0] [0] [1] [] []
  dot_S8192x1280_S1280x256_S8192x256_1_0_0_1_n_n_wf : DotDims.WF S8192x1280 S1280x256 S8192x256 [1] [0] [0] [1] [] []

variable [Facts₀]

def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x1280_S1280x256_S8192x256_1_0_0_1_n_n : DotDims S8192x1280 S1280x256 S8192x256 where
  lhsContracting := [1]
  rhsContracting := [0]
  lhsNonContracting := [0]
  rhsNonContracting := [1]
  lhsBatch := []
  rhsBatch := []
  wf := dot_S8192x1280_S1280x256_S8192x256_1_0_0_1_n_n_wf

class Facts : Prop extends Facts₀ where

variable [Facts]
-- ==== Proof.KB.Cheb0.lean ====
import proofs.«115948_j41927470743646_1_alg».proof.Proof.Gen.Kernel.Launch
import proofs.«115948_j41927470743646_1_alg».proof.Proof.Gen.Kernel.Skeleton
import proofs.«115948_j41927470743646_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev lblk0 (c : Dev nD) (t : Fin cfg0.N) : Vec F S1024x2048 .f32 := iblk0 V c 0 t
abbrev pblk0 (c : Dev nD) (t : Fin cfg0.N) : Vec F S2048x256 .f32 := iblk0 V c 1 t
abbrev qblk0 (c : Dev nD) (t : Fin cfg0.N) : Vec F S1024x256 .f32 := iblk0 V c 2 t

abbrev first0 (i : grid0.Coords) : Prop := (Scalar.cmpi .ne (Scalar.extui (Scalar.cmpi .eq (BitVec.ofNat 32 (i 1).val) 0#32)) 0#32) = 1#1
theorem hfirst0 : ∀ t : Fin cfg0.N, first0 (grid0.coords t) ↔ t.val % 4 = 0 :=
  (by decide +kernel : ∀ t : Fin grid0.N, first0 (grid0.coords t) ↔ t.val % 4 = 0)
abbrev last0 (i : grid0.Coords) : Prop := k0_cond2 i = 1#1
theorem hlast0 : ∀ t : Fin cfg0.N, last0 (grid0.coords t) ↔ t.val % 4 = 3 :=
  (by decide +kernel : ∀ t : Fin grid0.N, last0 (grid0.coords t) ↔ t.val % 4 = 3)

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem idle0_3 : ∀ t : Fin cfg0.N, ¬last0 (grid0.coords t) → cfg0.idle 3 (grid0.coords t) = true ∧ (cfg0.win 3).flush t = false := by decide +kernel
theorem live0_3 : ∀ t : Fin cfg0.N, last0 (grid0.coords t) → cfg0.idle 3 (grid0.coords t) = false := by decide +kernel

/-- The accumulator after point n: the tiles' product added to zero at a first step, else to what point n - 1 left. -/
def acc0 (c : Dev nD) : (n : ℕ) → n < cfg0.N → Vec F S1024x256 .f32
  | 0, hn => k0_pay2 (lblk0 V c ⟨0, hn⟩) (pblk0 V c ⟨0, hn⟩) (k0_pay1 (F := F))
  | n + 1, hn =>
    if (n + 1) % 4 = 0 then k0_pay2 (lblk0 V c ⟨n + 1, hn⟩) (pblk0 V c ⟨n + 1, hn⟩) (k0_pay1 (F := F))
    else k0_pay2 (lblk0 V c ⟨n + 1, hn⟩) (pblk0 V c ⟨n + 1, hn⟩) (acc0 c n (Nat.lt_of_succ_lt hn))

theorem acc0_first (c : Dev nD) (t : Fin cfg0.N) (h : t.val % 4 = 0) :
    acc0 V c t.val t.isLt = k0_pay2 (lblk0 V c t) (pblk0 V c t) (k0_pay1 (F := F)) := by
  obtain ⟨n, hn⟩ := t
  cases n with
  | zero => rfl
  | succ n => exact if_pos h

theorem acc0_next (c : Dev nD) (t : Fin cfg0.N) (h : ¬t.val % 4 = 0) :
    acc0 V c t.val t.isLt
      = k0_pay2 (lblk0 V c t) (pblk0 V c t) (acc0 V c (t.val - 1) (Nat.lt_of_le_of_lt (Nat.sub_le _ _) t.isLt)) := by
  obtain ⟨n, hn⟩ := t
  cases n with
  | zero => exact absurd (Nat.zero_mod _) h
  | succ n => exact if_neg h

def out0 (c : Dev nD) (t : Fin cfg0.N) : Vec F S1024x256 .f32 :=
  k0_pay3 (acc0 V c t.val t.isLt) (qblk0 V c t)

abbrev scM0 : Memref sig .tc .vmem S1024x256 .f32 := Memref.whole cc0_scratch0

theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-- Before point n the accumulator holds what point n - 1 left (anything when n = 0). -/
def PhiS0 (c : Dev nD) (n : ℕ) (hn : n ≤ cfg0.N) : sProp 𝕄 :=
  iprop(∃ d, ⌜∀ h : n ≠ 0, d = acc0 V c (n - 1) (by omega)⌝ ∗ iprop(owns (c : Thread nD τ) scM0 fullShare d ∗ Pipeline.scopedRestBut (Ix := Unit) (Name := ℕ) (U := UR sig nD τ) (Lvl := ℕ) (Val := Elt F) spec0 c [cc0_scratch0]) ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ t := PhiS0 V c t.val (Nat.le_of_lt_succ t.isLt)
  q w := match w with
    | ⟨1, _⟩ => fullShare.left
    | ⟨2, _⟩ => fullShare.right
    | _ => fullShare
  owed _ := 0

theorem A_eq0 (c : Dev nD) (w : Fin cfg0.W) : (dat0 V c).A w = V c (Pipeline.arrRef spec0 w) := rfl
theorem after0_3 (c : Dev nD) (t : Fin cfg0.N) : (dat0 V c).after 3 t = out0 V c t := rfl

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

set_option maxHeartbeats 4000000 in
/-- The accumulator gains the tiles' product (from zero at a first step); only a last step writes the output tile. -/
theorem run0 (c : Dev nD) (E : Set ℕ) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hne : first0 i → ¬last0 i)
    (x0 : Vec F S1024x2048 .f32) (x1 : Vec F S2048x256 .f32) (x2 xo xs : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (if last0 i then k0_pay3 (k0_pay2 x0 x1 (if first0 i then k0_pay1 (F := F) else xs)) x2 else xo)
            ∗ owns (c : Thread nD τ) arg6 fullShare (k0_pay2 x0 x1 (if first0 i then k0_pay1 (F := F) else xs))) -∗ K ⟨⟩))
      ⊢ wp frame (wpE (defs₀ (F := F)) Variants.none c none) E (cc0__cheb_kernel i arg2 harg2 arg3 harg3 arg4 harg4 arg5 harg5 arg6 harg6) K := by
  have hz : (![0, 0] : Fin 2 → ℕ) = fun _ => 0 := by funext a; fin_cases a <;> rfl
  by_cases hc0 : first0 i <;> by_cases hc1 : last0 i
  · exact absurd hc1 (hne hc0)
  all_goals
    first | rw [if_pos hc0] | rw [if_neg hc0]
    first | rw [if_pos hc1] | rw [if_neg hc1]
    simp only [cc0__cheb_kernel_eq_skeleton]; unfold cc0__cheb_kernel_skel owns
    iintro ⟨⟨%f0, %hf0, H0⟩, ⟨%f1, %hf1, H1⟩, ⟨%f2, %hf2, H2⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hfo; obtain rfl := harg6.eq_unread hfs
    sl_exec (disch := first | exact hc0 | exact hc1)
    sl_step
    iapply Hk
    isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [HO]
    · iexists _; isplitr
      swap; · iexact HO
      ipureintro
      first
      | exact hfo
      | (sl_unfold_words
         rw [View.read_writes_eq_canon _ _ _ (fun y => ⟨_, List.mem_cons_self, View.mem_set_unit_zero hz inb_S1024x256_S1024x256_0_0 y⟩)]
         rw [View.canon_cons_unit_zero (S := S1024x256) hz]
         simp only [View.readAt_eq_ld, hf0, hf1, hf2, hfs, View.ld_unit_zero (S := S1024x2048) hz, View.ld_unit_zero (S := S2048x256) hz, View.ld_unit_zero (S := S1024x256) hz, View.readCov_unit_zero (S := S1024x256) _ hz])
    iexists _; isplitr
    swap; · iexact HS
    ipureintro
    sl_unfold_words
    rw [View.read_writes_eq_canon _ _ _ (fun y => ⟨_, List.mem_cons_self, View.mem_set_unit_zero hz inb_S1024x256_S1024x256_0_0 y⟩)]
    rw [View.canon_cons_unit_zero (S := S1024x256) hz]
    simp only [View.readAt_eq_ld, hf0, hf1, hfs, View.ld_unit_zero (S := S1024x2048) hz, View.ld_unit_zero (S := S2048x256) hz, View.ld_unit_zero (S := S1024x256) hz, View.readCov_unit_zero (S := S1024x256) _ hz]

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

theorem leaves0 (c : Dev nD) (t : Fin cfg0.N) (w : Fin cfg0.W) (hl : cfg0.idle w (grid0.coords t) = false) :
    (dat0 V c).leavesExact w t = owns (c : Thread nD τ) ((cfg0.win w).stage (cfg0.slots t w)) fullShare ((dat0 V c).after w t) := by
  unfold Dat.leavesExact; rw [hl]

set_option maxHeartbeats 1600000 in
/-- At point t the invariant lends the accumulator and t mod 4 decides which of the two stores happen. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).Φ t.succ = PhiS0 V c (t.val + 1) t.isLt from rfl,
    show (dat0 V c).Φ t.castSucc = PhiS0 V c t.val (Nat.le_of_lt t.isLt) from rfl,
    leaves0 V c t 0 (live0_0 t), leaves0 V c t 1 (live0_1 t), leaves0 V c t 2 (live0_2 t)]
  unfold PhiS0
  have hne : first0 (grid0.coords t) → ¬last0 (grid0.coords t) := fun hf hl => by
    have := (hfirst0 t).mp hf; have := (hlast0 t).mp hl; omega
  have hacc : ∀ d, (∀ h : t.val ≠ 0, d = acc0 V c (t.val - 1) (by omega)) →
      k0_pay2 (lblk0 V c t) (pblk0 V c t) (if first0 (grid0.coords t) then k0_pay1 (F := F) else d) = acc0 V c t.val t.isLt := fun d hd => by
    by_cases h0 : t.val % 4 = 0
    · rw [if_pos ((hfirst0 t).mpr h0), acc0_first V c t h0]
    · rw [if_neg (fun h => h0 ((hfirst0 t).mp h)), acc0_next V c t h0, hd (fun e => h0 (by rw [e]))]
  by_cases hl : last0 (grid0.coords t)
  on_goal 1 => rw [leaves0 V c t 3 (live0_3 t hl), after0_3]; unfold out0
  on_goal 2 => rw [Dat.leavesExact_idle (dat0 V c) 3 t (idle0_3 t hl).1 (idle0_3 t hl).2]
  all_goals
    iintro ⟨⟨%ds, %hds, ⟨HS, HR⟩, Hg⟩, Ho, ⟨%d0, H0⟩, ⟨%d1, H1⟩, ⟨%d2, H2⟩, ⟨%d3, H3⟩⟩
    iapply (run0 c Set.univ (grid0.coords t) _ _ _ _ _ _ _ _ _ _ hne (lblk0 V c t) (pblk0 V c t) (qblk0 V c t) ((dat0 V c).before 3 t d3) ds _)
    isplitl [H0]; · iexact H0
    isplitl [H1]; · iexact H1
    isplitl [H2]; · iexact H2
    isplitl [H3]; · iexact H3
    isplitl [HS]; · iexact HS
    iintro ⟨H0, H1, H2, H3, HS⟩
    rw [hacc ds hds]
    first | rw [if_pos hl] | rw [if_neg hl]
    isplitl [HS HR Hg]
    · iexists (acc0 V c t.val t.isLt); isplitr; · ipureintro; exact fun _ => rfl
      isplitl [HS HR]
      · isplitl [HS]; · iexact HS
        iexact HR
      iexact Hg
    isplitl [Ho]; · iexact Ho
    isplitl [H0]; · iexact H0
    isplitl [H1]; · iexact H1
    isplitl [H2]; · iexact H2
    first | iexact H3 | (iexists _; iexact H3)

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [PhiA0_eq]; show _ ⊢ PhiS0 V c 0 (Nat.zero_le _); unfold PhiS0
  iintro ⟨⟨⟨%d, HS⟩, HR⟩, Hg⟩
  iexists d; isplitr; · ipureintro; exact fun h => absurd rfl h
  iframe

theorem hout0 (c : Dev nD) : (dat0 V c).Φ (Fin.last cfg0.N) ⊢ Pipeline.ΦA spec0 c := by
  rw [PhiA0_eq]; show PhiS0 V c (Fin.last cfg0.N).val (Nat.le_of_lt_succ (Fin.last cfg0.N).isLt) ⊢ _; unfold PhiS0
  iintro ⟨%d, -, ⟨HS, HR⟩, Hg⟩
  iframe HR Hg
  iexists d; iexact HS

end Cert.Kernel.Hand

end
-- ==== Proof.KB.Cheb1.lean ====
import proofs.«115948_j41927470743646_1_alg».proof.Proof.Gen.Kernel.Launch
import proofs.«115948_j41927470743646_1_alg».proof.Proof.Gen.Kernel.Skeleton
import proofs.«115948_j41927470743646_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev lblk1 (c : Dev nD) (t : Fin cfg1.N) : Vec F S1024x2048 .f32 := iblk1 V c 0 t
abbrev pblk1 (c : Dev nD) (t : Fin cfg1.N) : Vec F S2048x256 .f32 := iblk1 V c 1 t
abbrev qblk1 (c : Dev nD) (t : Fin cfg1.N) : Vec F S1024x256 .f32 := iblk1 V c 2 t

abbrev first1 (i : grid1.Coords) : Prop := (Scalar.cmpi .ne (Scalar.extui (Scalar.cmpi .eq (BitVec.ofNat 32 (i 1).val) 0#32)) 0#32) = 1#1
theorem hfirst1 : ∀ t : Fin cfg1.N, first1 (grid1.coords t) ↔ t.val % 4 = 0 :=
  (by decide +kernel : ∀ t : Fin grid1.N, first1 (grid1.coords t) ↔ t.val % 4 = 0)
abbrev last1 (i : grid1.Coords) : Prop := k1_cond2 i = 1#1
theorem hlast1 : ∀ t : Fin cfg1.N, last1 (grid1.coords t) ↔ t.val % 4 = 3 :=
  (by decide +kernel : ∀ t : Fin grid1.N, last1 (grid1.coords t) ↔ t.val % 4 = 3)

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem idle1_3 : ∀ t : Fin cfg1.N, ¬last1 (grid1.coords t) → cfg1.idle 3 (grid1.coords t) = true ∧ (cfg1.win 3).flush t = false := by decide +kernel
theorem live1_3 : ∀ t : Fin cfg1.N, last1 (grid1.coords t) → cfg1.idle 3 (grid1.coords t) = false := by decide +kernel

/-- The accumulator after point n: the tiles' product added to zero at a first step, else to what point n - 1 left. -/
def acc1 (c : Dev nD) : (n : ℕ) → n < cfg1.N → Vec F S1024x256 .f32
  | 0, hn => k1_pay2 (lblk1 V c ⟨0, hn⟩) (pblk1 V c ⟨0, hn⟩) (k1_pay1 (F := F))
  | n + 1, hn =>
    if (n + 1) % 4 = 0 then k1_pay2 (lblk1 V c ⟨n + 1, hn⟩) (pblk1 V c ⟨n + 1, hn⟩) (k1_pay1 (F := F))
    else k1_pay2 (lblk1 V c ⟨n + 1, hn⟩) (pblk1 V c ⟨n + 1, hn⟩) (acc1 c n (Nat.lt_of_succ_lt hn))

theorem acc1_first (c : Dev nD) (t : Fin cfg1.N) (h : t.val % 4 = 0) :
    acc1 V c t.val t.isLt = k1_pay2 (lblk1 V c t) (pblk1 V c t) (k1_pay1 (F := F)) := by
  obtain ⟨n, hn⟩ := t
  cases n with
  | zero => rfl
  | succ n => exact if_pos h

theorem acc1_next (c : Dev nD) (t : Fin cfg1.N) (h : ¬t.val % 4 = 0) :
    acc1 V c t.val t.isLt
      = k1_pay2 (lblk1 V c t) (pblk1 V c t) (acc1 V c (t.val - 1) (Nat.lt_of_le_of_lt (Nat.sub_le _ _) t.isLt)) := by
  obtain ⟨n, hn⟩ := t
  cases n with
  | zero => exact absurd (Nat.zero_mod _) h
  | succ n => exact if_neg h

def out1 (c : Dev nD) (t : Fin cfg1.N) : Vec F S1024x256 .f32 :=
  k1_pay3 (acc1 V c t.val t.isLt) (qblk1 V c t)

abbrev scM1 : Memref sig .tc .vmem S1024x256 .f32 := Memref.whole cc1_scratch0

theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-- Before point n the accumulator holds what point n - 1 left (anything when n = 0). -/
def PhiS1 (c : Dev nD) (n : ℕ) (hn : n ≤ cfg1.N) : sProp 𝕄 :=
  iprop(∃ d, ⌜∀ h : n ≠ 0, d = acc1 V c (n - 1) (by omega)⌝ ∗ iprop(owns (c : Thread nD τ) scM1 fullShare d ∗ Pipeline.scopedRestBut (Ix := Unit) (Name := ℕ) (U := UR sig nD τ) (Lvl := ℕ) (Val := Elt F) spec1 c [cc1_scratch0]) ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := rfl
theorem after1_3 (c : Dev nD) (t : Fin cfg1.N) : (dat1 V c).after 3 t = out1 V c t := rfl

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

set_option maxHeartbeats 4000000 in
/-- The accumulator gains the tiles' product (from zero at a first step); only a last step writes the output tile. -/
theorem run1 (c : Dev nD) (E : Set ℕ) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hne : first1 i → ¬last1 i)
    (x0 : Vec F S1024x2048 .f32) (x1 : Vec F S2048x256 .f32) (x2 xo xs : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (if last1 i then k1_pay3 (k1_pay2 x0 x1 (if first1 i then k1_pay1 (F := F) else xs)) x2 else xo)
            ∗ owns (c : Thread nD τ) arg6 fullShare (k1_pay2 x0 x1 (if first1 i then k1_pay1 (F := F) else xs))) -∗ K ⟨⟩))
      ⊢ wp frame (wpE (defs₀ (F := F)) Variants.none c none) E (cc1__cheb_kernel i arg2 harg2 arg3 harg3 arg4 harg4 arg5 harg5 arg6 harg6) K := by
  have hz : (![0, 0] : Fin 2 → ℕ) = fun _ => 0 := by funext a; fin_cases a <;> rfl
  by_cases hc0 : first1 i <;> by_cases hc1 : last1 i
  · exact absurd hc1 (hne hc0)
  all_goals
    first | rw [if_pos hc0] | rw [if_neg hc0]
    first | rw [if_pos hc1] | rw [if_neg hc1]
    simp only [cc1__cheb_kernel_eq_skeleton]; unfold cc1__cheb_kernel_skel owns
    iintro ⟨⟨%f0, %hf0, H0⟩, ⟨%f1, %hf1, H1⟩, ⟨%f2, %hf2, H2⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hfo; obtain rfl := harg6.eq_unread hfs
    sl_exec (disch := first | exact hc0 | exact hc1)
    sl_step
    iapply Hk
    isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [HO]
    · iexists _; isplitr
      swap; · iexact HO
      ipureintro
      first
      | exact hfo
      | (sl_unfold_words
         rw [View.read_writes_eq_canon _ _ _ (fun y => ⟨_, List.mem_cons_self, View.mem_set_unit_zero hz inb_S1024x256_S1024x256_0_0 y⟩)]
         rw [View.canon_cons_unit_zero (S := S1024x256) hz]
         simp only [View.readAt_eq_ld, hf0, hf1, hf2, hfs, View.ld_unit_zero (S := S1024x2048) hz, View.ld_unit_zero (S := S2048x256) hz, View.ld_unit_zero (S := S1024x256) hz, View.readCov_unit_zero (S := S1024x256) _ hz])
    iexists _; isplitr
    swap; · iexact HS
    ipureintro
    sl_unfold_words
    rw [View.read_writes_eq_canon _ _ _ (fun y => ⟨_, List.mem_cons_self, View.mem_set_unit_zero hz inb_S1024x256_S1024x256_0_0 y⟩)]
    rw [View.canon_cons_unit_zero (S := S1024x256) hz]
    simp only [View.readAt_eq_ld, hf0, hf1, hfs, View.ld_unit_zero (S := S1024x2048) hz, View.ld_unit_zero (S := S2048x256) hz, View.ld_unit_zero (S := S1024x256) hz, View.readCov_unit_zero (S := S1024x256) _ hz]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

theorem leaves1 (c : Dev nD) (t : Fin cfg1.N) (w : Fin cfg1.W) (hl : cfg1.idle w (grid1.coords t) = false) :
    (dat1 V c).leavesExact w t = owns (c : Thread nD τ) ((cfg1.win w).stage (cfg1.slots t w)) fullShare ((dat1 V c).after w t) := by
  unfold Dat.leavesExact; rw [hl]

set_option maxHeartbeats 1600000 in
/-- At point t the invariant lends the accumulator and t mod 4 decides which of the two stores happen. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = PhiS1 V c (t.val + 1) t.isLt from rfl,
    show (dat1 V c).Φ t.castSucc = PhiS1 V c t.val (Nat.le_of_lt t.isLt) from rfl,
    leaves1 V c t 0 (live1_0 t), leaves1 V c t 1 (live1_1 t), leaves1 V c t 2 (live1_2 t)]
  unfold PhiS1
  have hne : first1 (grid1.coords t) → ¬last1 (grid1.coords t) := fun hf hl => by
    have := (hfirst1 t).mp hf; have := (hlast1 t).mp hl; omega
  have hacc : ∀ d, (∀ h : t.val ≠ 0, d = acc1 V c (t.val - 1) (by omega)) →
      k1_pay2 (lblk1 V c t) (pblk1 V c t) (if first1 (grid1.coords t) then k1_pay1 (F := F) else d) = acc1 V c t.val t.isLt := fun d hd => by
    by_cases h0 : t.val % 4 = 0
    · rw [if_pos ((hfirst1 t).mpr h0), acc1_first V c t h0]
    · rw [if_neg (fun h => h0 ((hfirst1 t).mp h)), acc1_next V c t h0, hd (fun e => h0 (by rw [e]))]
  by_cases hl : last1 (grid1.coords t)
  on_goal 1 => rw [leaves1 V c t 3 (live1_3 t hl), after1_3]; unfold out1
  on_goal 2 => rw [Dat.leavesExact_idle (dat1 V c) 3 t (idle1_3 t hl).1 (idle1_3 t hl).2]
  all_goals
    iintro ⟨⟨%ds, %hds, ⟨HS, HR⟩, Hg⟩, Ho, ⟨%d0, H0⟩, ⟨%d1, H1⟩, ⟨%d2, H2⟩, ⟨%d3, H3⟩⟩
    iapply (run1 c Set.univ (grid1.coords t) _ _ _ _ _ _ _ _ _ _ hne (lblk1 V c t) (pblk1 V c t) (qblk1 V c t) ((dat1 V c).before 3 t d3) ds _)
    isplitl [H0]; · iexact H0
    isplitl [H1]; · iexact H1
    isplitl [H2]; · iexact H2
    isplitl [H3]; · iexact H3
    isplitl [HS]; · iexact HS
    iintro ⟨H0, H1, H2, H3, HS⟩
    rw [hacc ds hds]
    first | rw [if_pos hl] | rw [if_neg hl]
    isplitl [HS HR Hg]
    · iexists (acc1 V c t.val t.isLt); isplitr; · ipureintro; exact fun _ => rfl
      isplitl [HS HR]
      · isplitl [HS]; · iexact HS
        iexact HR
      iexact Hg
    isplitl [Ho]; · iexact Ho
    isplitl [H0]; · iexact H0
    isplitl [H1]; · iexact H1
    isplitl [H2]; · iexact H2
    first | iexact H3 | (iexists _; iexact H3)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [PhiA1_eq]; show _ ⊢ PhiS1 V c 0 (Nat.zero_le _); unfold PhiS1
  iintro ⟨⟨⟨%d, HS⟩, HR⟩, Hg⟩
  iexists d; isplitr; · ipureintro; exact fun h => absurd rfl h
  iframe

theorem hout1 (c : Dev nD) : (dat1 V c).Φ (Fin.last cfg1.N) ⊢ Pipeline.ΦA spec1 c := by
  rw [PhiA1_eq]; show PhiS1 V c (Fin.last cfg1.N).val (Nat.le_of_lt_succ (Fin.last cfg1.N).isLt) ⊢ _; unfold PhiS1
  iintro ⟨%d, -, ⟨HS, HR⟩, Hg⟩
  iframe HR Hg
  iexists d; iexact HS

end Cert.Kernel.Hand

end
-- ==== Proof.KB.Cheb2.lean ====
import proofs.«115948_j41927470743646_1_alg».proof.Proof.Gen.Kernel.Launch
import proofs.«115948_j41927470743646_1_alg».proof.Proof.Gen.Kernel.Skeleton
import proofs.«115948_j41927470743646_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev lblk2 (c : Dev nD) (t : Fin cfg2.N) : Vec F S1024x2048 .f32 := iblk2 V c 0 t
abbrev pblk2 (c : Dev nD) (t : Fin cfg2.N) : Vec F S2048x256 .f32 := iblk2 V c 1 t
abbrev qblk2 (c : Dev nD) (t : Fin cfg2.N) : Vec F S1024x256 .f32 := iblk2 V c 2 t

abbrev first2 (i : grid2.Coords) : Prop := (Scalar.cmpi .ne (Scalar.extui (Scalar.cmpi .eq (BitVec.ofNat 32 (i 1).val) 0#32)) 0#32) = 1#1
theorem hfirst2 : ∀ t : Fin cfg2.N, first2 (grid2.coords t) ↔ t.val % 4 = 0 :=
  (by decide +kernel : ∀ t : Fin grid2.N, first2 (grid2.coords t) ↔ t.val % 4 = 0)
abbrev last2 (i : grid2.Coords) : Prop := k2_cond2 i = 1#1
theorem hlast2 : ∀ t : Fin cfg2.N, last2 (grid2.coords t) ↔ t.val % 4 = 3 :=
  (by decide +kernel : ∀ t : Fin grid2.N, last2 (grid2.coords t) ↔ t.val % 4 = 3)

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem idle2_3 : ∀ t : Fin cfg2.N, ¬last2 (grid2.coords t) → cfg2.idle 3 (grid2.coords t) = true ∧ (cfg2.win 3).flush t = false := by decide +kernel
theorem live2_3 : ∀ t : Fin cfg2.N, last2 (grid2.coords t) → cfg2.idle 3 (grid2.coords t) = false := by decide +kernel

/-- The accumulator after point n: the tiles' product added to zero at a first step, else to what point n - 1 left. -/
def acc2 (c : Dev nD) : (n : ℕ) → n < cfg2.N → Vec F S1024x256 .f32
  | 0, hn => k2_pay2 (lblk2 V c ⟨0, hn⟩) (pblk2 V c ⟨0, hn⟩) (k2_pay1 (F := F))
  | n + 1, hn =>
    if (n + 1) % 4 = 0 then k2_pay2 (lblk2 V c ⟨n + 1, hn⟩) (pblk2 V c ⟨n + 1, hn⟩) (k2_pay1 (F := F))
    else k2_pay2 (lblk2 V c ⟨n + 1, hn⟩) (pblk2 V c ⟨n + 1, hn⟩) (acc2 c n (Nat.lt_of_succ_lt hn))

theorem acc2_first (c : Dev nD) (t : Fin cfg2.N) (h : t.val % 4 = 0) :
    acc2 V c t.val t.isLt = k2_pay2 (lblk2 V c t) (pblk2 V c t) (k2_pay1 (F := F)) := by
  obtain ⟨n, hn⟩ := t
  cases n with
  | zero => rfl
  | succ n => exact if_pos h

theorem acc2_next (c : Dev nD) (t : Fin cfg2.N) (h : ¬t.val % 4 = 0) :
    acc2 V c t.val t.isLt
      = k2_pay2 (lblk2 V c t) (pblk2 V c t) (acc2 V c (t.val - 1) (Nat.lt_of_le_of_lt (Nat.sub_le _ _) t.isLt)) := by
  obtain ⟨n, hn⟩ := t
  cases n with
  | zero => exact absurd (Nat.zero_mod _) h
  | succ n => exact if_neg h

def out2 (c : Dev nD) (t : Fin cfg2.N) : Vec F S1024x256 .f32 :=
  k2_pay3 (acc2 V c t.val t.isLt) (qblk2 V c t)

abbrev scM2 : Memref sig .tc .vmem S1024x256 .f32 := Memref.whole cc2_scratch0

theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-- Before point n the accumulator holds what point n - 1 left (anything when n = 0). -/
def PhiS2 (c : Dev nD) (n : ℕ) (hn : n ≤ cfg2.N) : sProp 𝕄 :=
  iprop(∃ d, ⌜∀ h : n ≠ 0, d = acc2 V c (n - 1) (by omega)⌝ ∗ iprop(owns (c : Thread nD τ) scM2 fullShare d ∗ Pipeline.scopedRestBut (Ix := Unit) (Name := ℕ) (U := UR sig nD τ) (Lvl := ℕ) (Val := Elt F) spec2 c [cc2_scratch0]) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := rfl
theorem after2_3 (c : Dev nD) (t : Fin cfg2.N) : (dat2 V c).after 3 t = out2 V c t := rfl

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl

set_option maxHeartbeats 4000000 in
/-- The accumulator gains the tiles' product (from zero at a first step); only a last step writes the output tile. -/
theorem run2 (c : Dev nD) (E : Set ℕ) (i : grid2.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hne : first2 i → ¬last2 i)
    (x0 : Vec F S1024x2048 .f32) (x1 : Vec F S2048x256 .f32) (x2 xo xs : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (if last2 i then k2_pay3 (k2_pay2 x0 x1 (if first2 i then k2_pay1 (F := F) else xs)) x2 else xo)
            ∗ owns (c : Thread nD τ) arg6 fullShare (k2_pay2 x0 x1 (if first2 i then k2_pay1 (F := F) else xs))) -∗ K ⟨⟩))
      ⊢ wp frame (wpE (defs₀ (F := F)) Variants.none c none) E (cc2__cheb_kernel i arg2 harg2 arg3 harg3 arg4 harg4 arg5 harg5 arg6 harg6) K := by
  have hz : (![0, 0] : Fin 2 → ℕ) = fun _ => 0 := by funext a; fin_cases a <;> rfl
  by_cases hc0 : first2 i <;> by_cases hc1 : last2 i
  · exact absurd hc1 (hne hc0)
  all_goals
    first | rw [if_pos hc0] | rw [if_neg hc0]
    first | rw [if_pos hc1] | rw [if_neg hc1]
    simp only [cc2__cheb_kernel_eq_skeleton]; unfold cc2__cheb_kernel_skel owns
    iintro ⟨⟨%f0, %hf0, H0⟩, ⟨%f1, %hf1, H1⟩, ⟨%f2, %hf2, H2⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hfo; obtain rfl := harg6.eq_unread hfs
    sl_exec (disch := first | exact hc0 | exact hc1)
    sl_step
    iapply Hk
    isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [HO]
    · iexists _; isplitr
      swap; · iexact HO
      ipureintro
      first
      | exact hfo
      | (sl_unfold_words
         rw [View.read_writes_eq_canon _ _ _ (fun y => ⟨_, List.mem_cons_self, View.mem_set_unit_zero hz inb_S1024x256_S1024x256_0_0 y⟩)]
         rw [View.canon_cons_unit_zero (S := S1024x256) hz]
         simp only [View.readAt_eq_ld, hf0, hf1, hf2, hfs, View.ld_unit_zero (S := S1024x2048) hz, View.ld_unit_zero (S := S2048x256) hz, View.ld_unit_zero (S := S1024x256) hz, View.readCov_unit_zero (S := S1024x256) _ hz])
    iexists _; isplitr
    swap; · iexact HS
    ipureintro
    sl_unfold_words
    rw [View.read_writes_eq_canon _ _ _ (fun y => ⟨_, List.mem_cons_self, View.mem_set_unit_zero hz inb_S1024x256_S1024x256_0_0 y⟩)]
    rw [View.canon_cons_unit_zero (S := S1024x256) hz]
    simp only [View.readAt_eq_ld, hf0, hf1, hfs, View.ld_unit_zero (S := S1024x2048) hz, View.ld_unit_zero (S := S2048x256) hz, View.ld_unit_zero (S := S1024x256) hz, View.readCov_unit_zero (S := S1024x256) _ hz]

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t)

theorem leaves2 (c : Dev nD) (t : Fin cfg2.N) (w : Fin cfg2.W) (hl : cfg2.idle w (grid2.coords t) = false) :
    (dat2 V c).leavesExact w t = owns (c : Thread nD τ) ((cfg2.win w).stage (cfg2.slots t w)) fullShare ((dat2 V c).after w t) := by
  unfold Dat.leavesExact; rw [hl]

set_option maxHeartbeats 1600000 in
/-- At point t the invariant lends the accumulator and t mod 4 decides which of the two stores happen. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = PhiS2 V c (t.val + 1) t.isLt from rfl,
    show (dat2 V c).Φ t.castSucc = PhiS2 V c t.val (Nat.le_of_lt t.isLt) from rfl,
    leaves2 V c t 0 (live2_0 t), leaves2 V c t 1 (live2_1 t), leaves2 V c t 2 (live2_2 t)]
  unfold PhiS2
  have hne : first2 (grid2.coords t) → ¬last2 (grid2.coords t) := fun hf hl => by
    have := (hfirst2 t).mp hf; have := (hlast2 t).mp hl; omega
  have hacc : ∀ d, (∀ h : t.val ≠ 0, d = acc2 V c (t.val - 1) (by omega)) →
      k2_pay2 (lblk2 V c t) (pblk2 V c t) (if first2 (grid2.coords t) then k2_pay1 (F := F) else d) = acc2 V c t.val t.isLt := fun d hd => by
    by_cases h0 : t.val % 4 = 0
    · rw [if_pos ((hfirst2 t).mpr h0), acc2_first V c t h0]
    · rw [if_neg (fun h => h0 ((hfirst2 t).mp h)), acc2_next V c t h0, hd (fun e => h0 (by rw [e]))]
  by_cases hl : last2 (grid2.coords t)
  on_goal 1 => rw [leaves2 V c t 3 (live2_3 t hl), after2_3]; unfold out2
  on_goal 2 => rw [Dat.leavesExact_idle (dat2 V c) 3 t (idle2_3 t hl).1 (idle2_3 t hl).2]
  all_goals
    iintro ⟨⟨%ds, %hds, ⟨HS, HR⟩, Hg⟩, Ho, ⟨%d0, H0⟩, ⟨%d1, H1⟩, ⟨%d2, H2⟩, ⟨%d3, H3⟩⟩
    iapply (run2 c Set.univ (grid2.coords t) _ _ _ _ _ _ _ _ _ _ hne (lblk2 V c t) (pblk2 V c t) (qblk2 V c t) ((dat2 V c).before 3 t d3) ds _)
    isplitl [H0]; · iexact H0
    isplitl [H1]; · iexact H1
    isplitl [H2]; · iexact H2
    isplitl [H3]; · iexact H3
    isplitl [HS]; · iexact HS
    iintro ⟨H0, H1, H2, H3, HS⟩
    rw [hacc ds hds]
    first | rw [if_pos hl] | rw [if_neg hl]
    isplitl [HS HR Hg]
    · iexists (acc2 V c t.val t.isLt); isplitr; · ipureintro; exact fun _ => rfl
      isplitl [HS HR]
      · isplitl [HS]; · iexact HS
        iexact HR
      iexact Hg
    isplitl [Ho]; · iexact Ho
    isplitl [H0]; · iexact H0
    isplitl [H1]; · iexact H1
    isplitl [H2]; · iexact H2
    first | iexact H3 | (iexists _; iexact H3)

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [PhiA2_eq]; show _ ⊢ PhiS2 V c 0 (Nat.zero_le _); unfold PhiS2
  iintro ⟨⟨⟨%d, HS⟩, HR⟩, Hg⟩
  iexists d; isplitr; · ipureintro; exact fun h => absurd rfl h
  iframe

theorem hout2 (c : Dev nD) : (dat2 V c).Φ (Fin.last cfg2.N) ⊢ Pipeline.ΦA spec2 c := by
  rw [PhiA2_eq]; show PhiS2 V c (Fin.last cfg2.N).val (Nat.le_of_lt_succ (Fin.last cfg2.N).isLt) ⊢ _; unfold PhiS2
  iintro ⟨%d, -, ⟨HS, HR⟩, Hg⟩
  iframe HR Hg
  iexists d; iexact HS

end Cert.Kernel.Hand

end
-- ==== Proof.KB.Cheb3.lean ====
import proofs.«115948_j41927470743646_1_alg».proof.Proof.Gen.Kernel.Launch
import proofs.«115948_j41927470743646_1_alg».proof.Proof.Gen.Kernel.Skeleton
import proofs.«115948_j41927470743646_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev lblk3 (c : Dev nD) (t : Fin cfg3.N) : Vec F S1024x2048 .f32 := iblk3 V c 0 t
abbrev pblk3 (c : Dev nD) (t : Fin cfg3.N) : Vec F S2048x256 .f32 := iblk3 V c 1 t
abbrev qblk3 (c : Dev nD) (t : Fin cfg3.N) : Vec F S1024x256 .f32 := iblk3 V c 2 t

abbrev first3 (i : grid3.Coords) : Prop := (Scalar.cmpi .ne (Scalar.extui (Scalar.cmpi .eq (BitVec.ofNat 32 (i 1).val) 0#32)) 0#32) = 1#1
theorem hfirst3 : ∀ t : Fin cfg3.N, first3 (grid3.coords t) ↔ t.val % 4 = 0 :=
  (by decide +kernel : ∀ t : Fin grid3.N, first3 (grid3.coords t) ↔ t.val % 4 = 0)
abbrev last3 (i : grid3.Coords) : Prop := k3_cond2 i = 1#1
theorem hlast3 : ∀ t : Fin cfg3.N, last3 (grid3.coords t) ↔ t.val % 4 = 3 :=
  (by decide +kernel : ∀ t : Fin grid3.N, last3 (grid3.coords t) ↔ t.val % 4 = 3)

theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
theorem idle3_3 : ∀ t : Fin cfg3.N, ¬last3 (grid3.coords t) → cfg3.idle 3 (grid3.coords t) = true ∧ (cfg3.win 3).flush t = false := by decide +kernel
theorem live3_3 : ∀ t : Fin cfg3.N, last3 (grid3.coords t) → cfg3.idle 3 (grid3.coords t) = false := by decide +kernel

/-- The accumulator after point n: the tiles' product added to zero at a first step, else to what point n - 1 left. -/
def acc3 (c : Dev nD) : (n : ℕ) → n < cfg3.N → Vec F S1024x256 .f32
  | 0, hn => k3_pay2 (lblk3 V c ⟨0, hn⟩) (pblk3 V c ⟨0, hn⟩) (k3_pay1 (F := F))
  | n + 1, hn =>
    if (n + 1) % 4 = 0 then k3_pay2 (lblk3 V c ⟨n + 1, hn⟩) (pblk3 V c ⟨n + 1, hn⟩) (k3_pay1 (F := F))
    else k3_pay2 (lblk3 V c ⟨n + 1, hn⟩) (pblk3 V c ⟨n + 1, hn⟩) (acc3 c n (Nat.lt_of_succ_lt hn))

theorem acc3_first (c : Dev nD) (t : Fin cfg3.N) (h : t.val % 4 = 0) :
    acc3 V c t.val t.isLt = k3_pay2 (lblk3 V c t) (pblk3 V c t) (k3_pay1 (F := F)) := by
  obtain ⟨n, hn⟩ := t
  cases n with
  | zero => rfl
  | succ n => exact if_pos h

theorem acc3_next (c : Dev nD) (t : Fin cfg3.N) (h : ¬t.val % 4 = 0) :
    acc3 V c t.val t.isLt
      = k3_pay2 (lblk3 V c t) (pblk3 V c t) (acc3 V c (t.val - 1) (Nat.lt_of_le_of_lt (Nat.sub_le _ _) t.isLt)) := by
  obtain ⟨n, hn⟩ := t
  cases n with
  | zero => exact absurd (Nat.zero_mod _) h
  | succ n => exact if_neg h

def out3 (c : Dev nD) (t : Fin cfg3.N) : Vec F S1024x256 .f32 :=
  k3_pay3 (acc3 V c t.val t.isLt) (qblk3 V c t)

abbrev scM3 : Memref sig .tc .vmem S1024x256 .f32 := Memref.whole cc3_scratch0

theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-- Before point n the accumulator holds what point n - 1 left (anything when n = 0). -/
def PhiS3 (c : Dev nD) (n : ℕ) (hn : n ≤ cfg3.N) : sProp 𝕄 :=
  iprop(∃ d, ⌜∀ h : n ≠ 0, d = acc3 V c (n - 1) (by omega)⌝ ∗ iprop(owns (c : Thread nD τ) scM3 fullShare d ∗ Pipeline.scopedRestBut (Ix := Unit) (Name := ℕ) (U := UR sig nD τ) (Lvl := ℕ) (Val := Elt F) spec3 c [cc3_scratch0]) ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := rfl
theorem after3_3 (c : Dev nD) (t : Fin cfg3.N) : (dat3 V c).after 3 t = out3 V c t := rfl

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl

set_option maxHeartbeats 4000000 in
/-- The accumulator gains the tiles' product (from zero at a first step); only a last step writes the output tile. -/
theorem run3 (c : Dev nD) (E : Set ℕ) (i : grid3.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hne : first3 i → ¬last3 i)
    (x0 : Vec F S1024x2048 .f32) (x1 : Vec F S2048x256 .f32) (x2 xo xs : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (if last3 i then k3_pay3 (k3_pay2 x0 x1 (if first3 i then k3_pay1 (F := F) else xs)) x2 else xo)
            ∗ owns (c : Thread nD τ) arg6 fullShare (k3_pay2 x0 x1 (if first3 i then k3_pay1 (F := F) else xs))) -∗ K ⟨⟩))
      ⊢ wp frame (wpE (defs₀ (F := F)) Variants.none c none) E (cc3__cheb_kernel i arg2 harg2 arg3 harg3 arg4 harg4 arg5 harg5 arg6 harg6) K := by
  have hz : (![0, 0] : Fin 2 → ℕ) = fun _ => 0 := by funext a; fin_cases a <;> rfl
  by_cases hc0 : first3 i <;> by_cases hc1 : last3 i
  · exact absurd hc1 (hne hc0)
  all_goals
    first | rw [if_pos hc0] | rw [if_neg hc0]
    first | rw [if_pos hc1] | rw [if_neg hc1]
    simp only [cc3__cheb_kernel_eq_skeleton]; unfold cc3__cheb_kernel_skel owns
    iintro ⟨⟨%f0, %hf0, H0⟩, ⟨%f1, %hf1, H1⟩, ⟨%f2, %hf2, H2⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hfo; obtain rfl := harg6.eq_unread hfs
    sl_exec (disch := first | exact hc0 | exact hc1)
    sl_step
    iapply Hk
    isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [HO]
    · iexists _; isplitr
      swap; · iexact HO
      ipureintro
      first
      | exact hfo
      | (sl_unfold_words
         rw [View.read_writes_eq_canon _ _ _ (fun y => ⟨_, List.mem_cons_self, View.mem_set_unit_zero hz inb_S1024x256_S1024x256_0_0 y⟩)]
         rw [View.canon_cons_unit_zero (S := S1024x256) hz]
         simp only [View.readAt_eq_ld, hf0, hf1, hf2, hfs, View.ld_unit_zero (S := S1024x2048) hz, View.ld_unit_zero (S := S2048x256) hz, View.ld_unit_zero (S := S1024x256) hz, View.readCov_unit_zero (S := S1024x256) _ hz])
    iexists _; isplitr
    swap; · iexact HS
    ipureintro
    sl_unfold_words
    rw [View.read_writes_eq_canon _ _ _ (fun y => ⟨_, List.mem_cons_self, View.mem_set_unit_zero hz inb_S1024x256_S1024x256_0_0 y⟩)]
    rw [View.canon_cons_unit_zero (S := S1024x256) hz]
    simp only [View.readAt_eq_ld, hf0, hf1, hfs, View.ld_unit_zero (S := S1024x2048) hz, View.ld_unit_zero (S := S2048x256) hz, View.ld_unit_zero (S := S1024x256) hz, View.readCov_unit_zero (S := S1024x256) _ hz]

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t ∗ (dat3 V c).leavesExact 3 t)

theorem leaves3 (c : Dev nD) (t : Fin cfg3.N) (w : Fin cfg3.W) (hl : cfg3.idle w (grid3.coords t) = false) :
    (dat3 V c).leavesExact w t = owns (c : Thread nD τ) ((cfg3.win w).stage (cfg3.slots t w)) fullShare ((dat3 V c).after w t) := by
  unfold Dat.leavesExact; rw [hl]

set_option maxHeartbeats 1600000 in
/-- At point t the invariant lends the accumulator and t mod 4 decides which of the two stores happen. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl,
    show (dat3 V c).Φ t.succ = PhiS3 V c (t.val + 1) t.isLt from rfl,
    show (dat3 V c).Φ t.castSucc = PhiS3 V c t.val (Nat.le_of_lt t.isLt) from rfl,
    leaves3 V c t 0 (live3_0 t), leaves3 V c t 1 (live3_1 t), leaves3 V c t 2 (live3_2 t)]
  unfold PhiS3
  have hne : first3 (grid3.coords t) → ¬last3 (grid3.coords t) := fun hf hl => by
    have := (hfirst3 t).mp hf; have := (hlast3 t).mp hl; omega
  have hacc : ∀ d, (∀ h : t.val ≠ 0, d = acc3 V c (t.val - 1) (by omega)) →
      k3_pay2 (lblk3 V c t) (pblk3 V c t) (if first3 (grid3.coords t) then k3_pay1 (F := F) else d) = acc3 V c t.val t.isLt := fun d hd => by
    by_cases h0 : t.val % 4 = 0
    · rw [if_pos ((hfirst3 t).mpr h0), acc3_first V c t h0]
    · rw [if_neg (fun h => h0 ((hfirst3 t).mp h)), acc3_next V c t h0, hd (fun e => h0 (by rw [e]))]
  by_cases hl : last3 (grid3.coords t)
  on_goal 1 => rw [leaves3 V c t 3 (live3_3 t hl), after3_3]; unfold out3
  on_goal 2 => rw [Dat.leavesExact_idle (dat3 V c) 3 t (idle3_3 t hl).1 (idle3_3 t hl).2]
  all_goals
    iintro ⟨⟨%ds, %hds, ⟨HS, HR⟩, Hg⟩, Ho, ⟨%d0, H0⟩, ⟨%d1, H1⟩, ⟨%d2, H2⟩, ⟨%d3, H3⟩⟩
    iapply (run3 c Set.univ (grid3.coords t) _ _ _ _ _ _ _ _ _ _ hne (lblk3 V c t) (pblk3 V c t) (qblk3 V c t) ((dat3 V c).before 3 t d3) ds _)
    isplitl [H0]; · iexact H0
    isplitl [H1]; · iexact H1
    isplitl [H2]; · iexact H2
    isplitl [H3]; · iexact H3
    isplitl [HS]; · iexact HS
    iintro ⟨H0, H1, H2, H3, HS⟩
    rw [hacc ds hds]
    first | rw [if_pos hl] | rw [if_neg hl]
    isplitl [HS HR Hg]
    · iexists (acc3 V c t.val t.isLt); isplitr; · ipureintro; exact fun _ => rfl
      isplitl [HS HR]
      · isplitl [HS]; · iexact HS
        iexact HR
      iexact Hg
    isplitl [Ho]; · iexact Ho
    isplitl [H0]; · iexact H0
    isplitl [H1]; · iexact H1
    isplitl [H2]; · iexact H2
    first | iexact H3 | (iexists _; iexact H3)

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [PhiA3_eq]; show _ ⊢ PhiS3 V c 0 (Nat.zero_le _); unfold PhiS3
  iintro ⟨⟨⟨%d, HS⟩, HR⟩, Hg⟩
  iexists d; isplitr; · ipureintro; exact fun h => absurd rfl h
  iframe

theorem hout3 (c : Dev nD) : (dat3 V c).Φ (Fin.last cfg3.N) ⊢ Pipeline.ΦA spec3 c := by
  rw [PhiA3_eq]; show PhiS3 V c (Fin.last cfg3.N).val (Nat.le_of_lt_succ (Fin.last cfg3.N).isLt) ⊢ _; unfold PhiS3
  iintro ⟨%d, -, ⟨HS, HR⟩, Hg⟩
  iframe HR Hg
  iexists d; iexact HS

end Cert.Kernel.Hand

end
-- ==== Proof.KB.FinalDefs.lean ====
import proofs.«115948_j41927470743646_1_alg».proof.Proof.Gen.Kernel.Launch
import proofs.«115948_j41927470743646_1_alg».proof.Proof.Gen.Kernel.Skeleton
import proofs.«115948_j41927470743646_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rW0 : Rect S1280x256 := Rect.unit (s := S1280x256) ![0, 0] S256x256.size inb_S1280x256_S256x256_0_0
abbrev rW1 : Rect S1280x256 := Rect.unit (s := S1280x256) ![256, 0] S256x256.size inb_S1280x256_S256x256_256_0
abbrev rW2 : Rect S1280x256 := Rect.unit (s := S1280x256) ![512, 0] S256x256.size inb_S1280x256_S256x256_512_0
abbrev rW3 : Rect S1280x256 := Rect.unit (s := S1280x256) ![768, 0] S256x256.size inb_S1280x256_S256x256_768_0
abbrev rW4 : Rect S1280x256 := Rect.unit (s := S1280x256) ![1024, 0] S256x256.size inb_S1280x256_S256x256_1024_0

def out4 (x0 x1 x2 x3 x4 : Vec F S1024x256 .f32) (w : Vec F S1280x256 .f32) (b : Vec F S1x256 .f32) : Vec F S1024x256 .f32 :=
  k4_pay1 (k4_pay2 x0 (View.ld w rW0) x1 (View.ld w rW1) x2 (View.ld w rW2) x3 (View.ld w rW3) x4 (View.ld w rW4)) b

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) :
    (dat4 V c).after 7 t = out4 (iblk4 V c 0 t) (iblk4 V c 1 t) (iblk4 V c 2 t) (iblk4 V c 3 t) (iblk4 V c 4 t) (iblk4 V c 5 t) (iblk4 V c 6 t) := by
  dsimp only [dat4]

end Cert.Kernel.Hand

end
-- ==== Proof.KB.Fold.lean ====
import proofs.«115948_j41927470743646_1_alg».proof.Proof.KB.Cheb0
import proofs.«115948_j41927470743646_1_alg».proof.Proof.KB.Cheb1
import proofs.«115948_j41927470743646_1_alg».proof.Proof.KB.Cheb2
import proofs.«115948_j41927470743646_1_alg».proof.Proof.KB.Cheb3
import proofs.«115948_j41927470743646_1_alg».proof.Proof.KB.FinalDefs
import proofs.«115948_j41927470743646_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 (c : Dev nD) : Valuation τ sig (Elt F) := fun b => m (c, b)
abbrev U0 (c : Dev nD) (b : Ref sig .tc) : Buf (Elt F) ((c : Thread nD τ).loc b) := W0 m c b

def o0 (c : Dev nD) : Buf (Elt F) ((c : Thread nD τ).loc main_v0) := (dat0 (U0 m) c).arrAt 3 cfg0.N
abbrev W1 (c : Dev nD) : Valuation τ sig (Elt F) := Function.update (W0 m c) main_v0 (o0 m c)
abbrev U1 (c : Dev nD) (b : Ref sig .tc) : Buf (Elt F) ((c : Thread nD τ).loc b) := W1 m c b

def o1 (c : Dev nD) : Buf (Elt F) ((c : Thread nD τ).loc main_v1) := (dat1 (U1 m) c).arrAt 3 cfg1.N
abbrev W2 (c : Dev nD) : Valuation τ sig (Elt F) := Function.update (W1 m c) main_v1 (o1 m c)
abbrev U2 (c : Dev nD) (b : Ref sig .tc) : Buf (Elt F) ((c : Thread nD τ).loc b) := W2 m c b

def o2 (c : Dev nD) : Buf (Elt F) ((c : Thread nD τ).loc main_v2) := (dat2 (U2 m) c).arrAt 3 cfg2.N
abbrev W3 (c : Dev nD) : Valuation τ sig (Elt F) := Function.update (W2 m c) main_v2 (o2 m c)
abbrev U3 (c : Dev nD) (b : Ref sig .tc) : Buf (Elt F) ((c : Thread nD τ).loc b) := W3 m c b

def o3 (c : Dev nD) : Buf (Elt F) ((c : Thread nD τ).loc main_v3) := (dat3 (U3 m) c).arrAt 3 cfg3.N
abbrev W4 (c : Dev nD) : Valuation τ sig (Elt F) := Function.update (W3 m c) main_v3 (o3 m c)

abbrev W5 (c : Dev nD) : Valuation τ sig (Elt F) := StableHlo.after hostOps4 (W4 m c)
abbrev U5 (c : Dev nD) (b : Ref sig .tc) : Buf (Elt F) ((c : Thread nD τ).loc b) := W5 m c b

def o4 (c : Dev nD) : Buf (Elt F) ((c : Thread nD τ).loc main_v5) := (dat4 (U5 m) c).arrAt 7 cfg4.N
abbrev W6 (c : Dev nD) : Valuation τ sig (Elt F) := Function.update (W5 m c) main_v5 (o4 m c)

theorem W1_of (c : Dev nD) (r : Ref sig .tc) (h : r ≠ main_v0) : W1 m c r = W0 m c r := by
  simp only [W1, Function.update_of_ne (StableHlo.devRef_ne_of_ne h : (Proc.devRef .tc r : DevRef τ sig) ≠ Proc.devRef .tc main_v0)]
theorem W2_of (c : Dev nD) (r : Ref sig .tc) (h : r ≠ main_v1) : W2 m c r = W1 m c r := by
  simp only [W2, Function.update_of_ne (StableHlo.devRef_ne_of_ne h : (Proc.devRef .tc r : DevRef τ sig) ≠ Proc.devRef .tc main_v1)]
theorem W3_of (c : Dev nD) (r : Ref sig .tc) (h : r ≠ main_v2) : W3 m c r = W2 m c r := by
  simp only [W3, Function.update_of_ne (StableHlo.devRef_ne_of_ne h : (Proc.devRef .tc r : DevRef τ sig) ≠ Proc.devRef .tc main_v2)]
theorem W4_of (c : Dev nD) (r : Ref sig .tc) (h : r ≠ main_v3) : W4 m c r = W3 m c r := by
  simp only [W4, Function.update_of_ne (StableHlo.devRef_ne_of_ne h : (Proc.devRef .tc r : DevRef τ sig) ≠ Proc.devRef .tc main_v3)]
theorem W5_of (c : Dev nD) (r : Ref sig .tc) (h : r ∉ hostOps4_W) : W5 m c r = W4 m c r :=
  StableHlo.after_of_writes_sub hostOps4 _ hostOps4_writes h
theorem W6_of (c : Dev nD) (r : Ref sig .tc) (h : r ≠ main_v5) : W6 m c r = W5 m c r := by
  simp only [W6, Function.update_of_ne (StableHlo.devRef_ne_of_ne h : (Proc.devRef .tc r : DevRef τ sig) ≠ Proc.devRef .tc main_v5)]
theorem W1_out (c : Dev nD) : W1 m c main_v0 = o0 m c := by simp only [W1, Function.update_self]
theorem W2_out (c : Dev nD) : W2 m c main_v1 = o1 m c := by simp only [W2, Function.update_self]
theorem W3_out (c : Dev nD) : W3 m c main_v2 = o2 m c := by simp only [W3, Function.update_self]
theorem W4_out (c : Dev nD) : W4 m c main_v3 = o3 m c := by simp only [W4, Function.update_self]
theorem W6_out (c : Dev nD) : W6 m c main_v5 = o4 m c := by simp only [W6, Function.update_self]

theorem W6_arg (c : Dev nD) (r : Ref sig .tc) (h0 : r ≠ main_v0) (h1 : r ≠ main_v1) (h2 : r ≠ main_v2) (h3 : r ≠ main_v3)
    (h4 : r ∉ hostOps4_W) (h5 : r ≠ main_v5) : W6 m c r = m ((c : Thread nD τ).loc r) :=
  (W6_of m c r h5).trans <| (W5_of m c r h4).trans <| (W4_of m c r h3).trans <| (W3_of m c r h2).trans <| (W2_of m c r h1).trans <| (W1_of m c r h0).trans rfl

end Cert.Kernel.Hand

end
-- ==== Proof.KB.Final.lean ====
import proofs.«115948_j41927470743646_1_alg».proof.Proof.KB.FinalDefs
import proofs.«115948_j41927470743646_1_alg».proof.Proof.Gen.Kernel.Launch
import proofs.«115948_j41927470743646_1_alg».proof.Proof.Gen.Kernel.Skeleton
import proofs.«115948_j41927470743646_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => rfl) t d).trans rfl
theorem before4_4 (c : Dev nD) (t : Fin cfg4.N) (d) : (dat4 V c).before 4 t d = iblk4 V c 4 t :=
  ((dat4 V c).before_in_eq_fetched 4 rfl (fun _ => rfl) (fun _ _ _ => rfl) (fun _ => rfl) t d).trans rfl
theorem before4_5 (c : Dev nD) (t : Fin cfg4.N) (d) : (dat4 V c).before 5 t d = iblk4 V c 5 t :=
  ((dat4 V c).before_in_eq_fetched 5 rfl (fun _ => rfl) (fun _ _ _ => rfl) (fun _ => rfl) t d).trans rfl
theorem before4_6 (c : Dev nD) (t : Fin cfg4.N) (d) : (dat4 V c).before 6 t d = iblk4 V c 6 t :=
  ((dat4 V c).before_in_eq_fetched 6 rfl (fun _ => rfl) (fun _ _ _ => rfl) (fun _ => rfl) t d).trans rfl

set_option maxHeartbeats 4000000 in

theorem sound_kernel4 (c : Dev nD) (E : Set ℕ) (i : grid4.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1280x256 .f32) (harg6 : arg6.IsWhole) (arg7 : Memref sig .tc .vmem S1x256 .f32) (harg7 : arg7.IsWhole) (arg8 : Memref sig .tc .vmem S1024x256 .f32) (harg8 : arg8.IsWhole)
    (x0 x1 x2 x3 x4 : Vec F S1024x256 .f32) (w : Vec F S1280x256 .f32) (b : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare w ∗ owns (c : Thread nD τ) arg7 fullShare b ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare w ∗ owns (c : Thread nD τ) arg7 fullShare b ∗ owns (c : Thread nD τ) arg8 fullShare (out4 x0 x1 x2 x3 x4 w b)) -∗ K ⟨⟩))
      ⊢ wp frame (wpE (defs₀ (F := F)) Variants.none c none) E (cc4__final_kernel i arg1 harg1 arg2 harg2 arg3 harg3 arg4 harg4 arg5 harg5 arg6 harg6 arg7 harg7 arg8 harg8) K := by
  simp only [cc4__final_kernel_eq_skeleton]; unfold cc4__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dO, %fo, -, HO⟩, Hk⟩
  subst hf0; subst hf1; subst hf2; subst hf3; subst hf4; subst hf5; subst hf6
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists _; isplitr
  swap; · iexact HO
  ipureintro
  have hz : (![0, 0] : Fin 2 → ℕ) = fun _ => 0 := by funext a; fin_cases a <;> rfl
  sl_unfold_words
  rw [View.read_writes_eq_canon _ _ _ (fun y => ⟨_, List.mem_cons_self, View.mem_set_unit_zero hz inb_S1024x256_S1024x256_0_0 y⟩)]
  rw [View.canon_cons_unit_zero (S := S1024x256) hz]
  unfold out4
  simp only [View.readAt_eq_ld, View.ld_unit_zero (S := S1024x256) hz, View.ld_unit_zero (S := S1x256) hz]

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KB.Shared0.lean ====
import proofs.«115948_j41927470743646_1_alg».proof.Proof.KB.Cheb0

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem arrImage0 : Finset.univ.image (Pipeline.arrRef spec0) = {main_arg0, main_arg1, main_v0} := by decide

theorem arrBufs0_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0)) := by
  unfold Pipeline.arrBufs
  rw [arrImage0, bigSep_insert (by decide), bigSep_insert (by decide), bigSep_singleton]
  rfl

theorem arrays0_chain (V : (c : Dev nD) → (b : Ref sig .tc) → Buf (Elt F) ((c : Thread nD τ).loc b)) (c : Dev nD)
    (G : (w : Fin cfg0.W) → Buf (Elt F) ((cfg0.win w).arr.view.loc (c : Thread nD τ))) :
    ((dat0 V c).arrays G : sProp 𝕄)
      = iprop((((c : Thread nD τ).loc main_arg0) ↦{fullShare} G 0) ∗ (((c : Thread nD τ).loc main_arg1) ↦{fullShare.left} G 1)
          ∗ (((c : Thread nD τ).loc main_arg1) ↦{fullShare.right} G 2) ∗ (((c : Thread nD τ).loc main_v0) ↦{fullShare} G 3)) := by
  unfold Dat.arrays
  rw [bigSep_W0]

  rw [(arr_whole0 0).set_eq_univ, (arr_whole0 1).set_eq_univ, (arr_whole0 3).set_eq_univ]
  rfl

theorem arrays0_of_unscopedBufs (V : (c : Dev nD) → (b : Ref sig .tc) → Buf (Elt F) ((c : Thread nD τ).loc b)) (c : Dev nD) :
    (unscopedBufs (Ix := Unit) (Name := ℕ) (U := UR sig nD τ) (Lvl := ℕ) c (V c) : sProp 𝕄)
      ⊢ iprop((dat0 V c).arrays ((dat0 V c).arrAt · 0)
          ∗ Pipeline.unscopedRest (Ix := Unit) (Name := ℕ) (U := UR sig nD τ) (Lvl := ℕ) spec0 c (V c)) := by

  rw [Pipeline.unscopedBufs_split₀ cfgs (0 : Fin 5) winFacts₀0.arr_unscoped c (V c)]
  refine sep_mono ?_ .rfl
  rw [show (Pipeline.arrBufs (Ix := Unit) (Name := ℕ) (U := UR sig nD τ) (Lvl := ℕ) (cfgs (0 : Fin 5)).spec c (V c) : sProp 𝕄)
      = Pipeline.arrBufs spec0 c (V c) from rfl, arrBufs0_chain, arrays0_chain]

  iintro ⟨Ha0, Ha1, Hv0⟩
  ihave Ha1 := (pointsTo_share (PosShare.mem_left_op_right fullShare)).1 $$ Ha1
  icases Ha1 with ⟨Hl, Hr⟩
  isplitl [Ha0]; · iexact Ha0
  isplitl [Hl]; · iexact Hl
  isplitl [Hr]; · iexact Hr
  iexact Hv0

theorem unscopedBufs_of_arrays0 (V V' : (c : Dev nD) → (b : Ref sig .tc) → Buf (Elt F) ((c : Thread nD τ).loc b)) (c : Dev nD)
    (hF : ∀ w, (dat0 V c).arrAt w cfg0.N = V' c (Pipeline.arrRef spec0 w))
    (hrest : ∀ b, b ∉ Finset.univ.image (Pipeline.arrRef spec0) → V' c b = V c b) :
    iprop((dat0 V c).arrays ((dat0 V c).arrAt · cfg0.N)
        ∗ Pipeline.unscopedRest (Ix := Unit) (Name := ℕ) (U := UR sig nD τ) (Lvl := ℕ) spec0 c (V c))
      ⊢ (unscopedBufs (Ix := Unit) (Name := ℕ) (U := UR sig nD τ) (Lvl := ℕ) c (V' c) : sProp 𝕄) := by
  rw [Pipeline.unscopedBufs_split₀ cfgs (0 : Fin 5) winFacts₀0.arr_unscoped c (V' c)]
  refine sep_mono ?_ (Entails.of_eq ?_)
  · rw [show (Pipeline.arrBufs (Ix := Unit) (Name := ℕ) (U := UR sig nD τ) (Lvl := ℕ) (cfgs (0 : Fin 5)).spec c (V' c) : sProp 𝕄)
        = Pipeline.arrBufs spec0 c (V' c) from rfl, arrBufs0_chain, arrays0_chain]

    rw [hF 0, hF 1, hF 2, hF 3]
    iintro ⟨Ha0, Hl, Hr, Hv0⟩
    ihave Ha1 := (pointsTo_share (PosShare.mem_left_op_right fullShare)).2 $$ [Hl Hr]
    · isplitl [Hl]; · iexact Hl
      iexact Hr
    isplitl [Ha0]; · iexact Ha0
    isplitl [Ha1]; · iexact Ha1
    iexact Hv0
  ·
    show Pipeline.unscopedRest spec0 c (V c) = Pipeline.unscopedRest spec0 c (V' c)
    unfold Pipeline.unscopedRest
    exact bigSep_congr fun b hb => by rw [hrest b (Finset.mem_sdiff.mp hb).2]

end Cert.Kernel.Hand

end
-- ==== Proof.KB.Run.lean ====
import proofs.«115948_j41927470743646_1_alg».proof.Proof.KB.Fold
import proofs.«115948_j41927470743646_1_alg».proof.Proof.KB.Final
import proofs.«115948_j41927470743646_1_alg».proof.Proof.KB.Shared0

set_option backward.isDefEq.respectTransparency.types false

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 5) → (c : Dev nD) → Dat τ (Elt F) Unit ℕ (UR sig nD τ) ℕ (Pipeline.pin (pcfgs (F := F)) adm p) c
  | ⟨0, _⟩ => fun c => dat0 (U0 m) c
  | ⟨1, _⟩ => fun c => dat1 (U1 m) c
  | ⟨2, _⟩ => fun c => dat2 (U2 m) c
  | ⟨3, _⟩ => fun c => dat3 (U3 m) c
  | ⟨4, _⟩ => fun c => dat4 (U5 m) c
abbrev 𝒱z : Variants := Variants.none
abbrev Lz : GSem nD τ sig → Finset Unit := fun _ => ∅
abbrev lvz : GSem nD τ sig → Unit → ℕ := fun _ _ => 0
abbrev Rest (c : Dev nD) : sProp 𝕄 := iprop((∃ r, prngReg c r) ∗ ∃ W, owes (c : Thread nD τ) (0 : CellTallies nD τ sig Unit) W)

abbrev hseg4 : Pipeline.HostSeg (Name := ℕ) (U := UR sig nD τ) (pcfgs (F := F)) defs₀ 𝒱z Lz lvz :=
  Pipeline.HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (W4 m) Rest

abbrev Reg := Pipeline.RegionSeg (pcfgs (F := F)) adm (pdats m) () defs₀ 𝒱z Lz lvz

theorem pd_std (p : Fin 5) (c : Dev nD) : (∀ t, (pdats m p c).owed t = 0) ∧ ∀ x, x ∈ (pdats m p c).recorded 0 := by
  fin_cases p <;> exact ⟨fun _ => rfl, fun _ => trivial⟩

/-- A region from contents `W` to `W'`: the buffers split into its arrays and a rest `Z` at entry, and join again at exit. -/
def mkReg {p : Fin 5} (win : Pipeline.WinFacts₀ (cfgs p).spec) (block_pos : ∀ w : Fin (cfgs p).W, 0 < ((cfgs p).spec w).block.numel)
    (stage_whole : ∀ (w : Fin (cfgs p).W) (s : Fin ((cfgs p).spec w).nbuf), (((cfgs p).spec w).stage s).IsWhole)
    (hbody : ∀ c, BodyObligation (pdats m p c) defs₀ 𝒱z () Set.univ)
    {W W' : Dev nD → Valuation τ sig (Elt F)} {Z : Dev nD → sProp 𝕄}
    (hsplit : ∀ c, (unscopedBufs c (fun b => W c b) : sProp 𝕄) ⊢ iprop((pdats m p c).arrays ((pdats m p c).arrAt · 0) ∗ Z c))
    (hjoin : ∀ c, iprop((pdats m p c).arrays ((pdats m p c).arrAt · (cfgs p).N) ∗ Z c) ⊢ (unscopedBufs c (fun b => W' c b) : sProp 𝕄))
    (hin : ∀ c, Pipeline.ΦA (cfgs p).spec c ⊢ (pdats m p c).Φ 0)
    (hout : ∀ c, (pdats m p c).Φ (Fin.last _) ⊢ Pipeline.ΦA (cfgs p).spec c) :
    Reg m p where
  win := win
  block_pos := block_pos
  stage_whole := stage_whole
  K := PEmpty
  osem k := k.elim
  ho := Pipeline.OwnSemFacts.none _
  hbody c := (hbody c).loose
  hwaits := Pipeline.hwaits_of_owed_zero _ _ _ _ Lz lvz p fun c => (pd_std m p c).1
  pre c := iprop(StableHlo.held (c : Thread nD τ) (Pipeline.ucRefs τ sig) (W c) ∗ Rest c)
  post c := iprop(StableHlo.held (c : Thread nD τ) (Pipeline.ucRefs τ sig) (W' c) ∗ Rest c)
  X c := iprop(∃ r, prngReg c r)
  Y c := iprop(∃ r, prngReg c r)
  Z := Z
  hentry c := by
    have hs := hsplit c
    rw [Pipeline.unscopedBufs_held] at hs
    unfold Pipeline.Dat.owesAt Pipeline.owesWithin Pipeline.prefHeld
    rw [(pd_std m p c).1]
    iintro ⟨⟨Hub, Hp, %O, HO⟩, -, -⟩
    icases hs $$ Hub with ⟨Ha, Hz⟩
    imodintro
    iframe Ha Hp Hz
    isplitr
    · rw [Finset.univ_eq_empty, BI.bigSep_empty]; iempintro
    iexists O; iframe HO; ipureintro; exact fun x _ => Or.inl ((pd_std m p c).2 x)
  hin c := (show _ ⊢ Pipeline.ΦA (cfgs p).spec c by unfold Pipeline.ΦA; iintro ⟨Hp, -, Hr⟩; iframe).trans (hin c)
  hout c := (hout c).trans (by rw [Pipeline.ownSems0_none]; unfold Pipeline.ΦA; iintro ⟨Hr, Hp⟩; iframe; iempintro)
  hexit c := by
    have hj := hjoin c
    rw [Pipeline.unscopedBufs_held] at hj
    unfold Pipeline.Dat.owesAt Pipeline.owesWithin Rest
    rw [(pd_std m p c).1]
    iintro ⟨Ha, ⟨%O, -, HO⟩, HY, Hz⟩
    imodintro
    iframe HY
    isplitl [Ha Hz]
    · iapply hj; iframe
    iexists O; iexact HO

/-- Window `o` is the one output, and its array is no input's. -/
abbrev OneOut {p : Fin 5} (o : Fin (cfgs p).W) : Prop :=
  ∀ w, w ≠ o → ((cfgs p).win w).isOut = false ∧ Pipeline.arrRef (cfgs p).spec w ≠ Pipeline.arrRef (cfgs p).spec o

/-- `V'` is `V` except at the output window's array, where it is that array's final contents. -/
theorem after_out {p : Fin 5} (c : Dev nD) {V V' : (b : Ref sig .tc) → Buf (Elt F) ((c : Thread nD τ).loc b)} (o : Fin (cfgs p).W) (hio : OneOut o)
    (hA : ∀ w, (pdats m p c).A w = V (Pipeline.arrRef (cfgs p).spec w))
    (hof : ∀ r, r ≠ Pipeline.arrRef (cfgs p).spec o → V' r = V r)
    (ho : V' (Pipeline.arrRef (cfgs p).spec o) = (pdats m p c).arrAt o (cfgs p).N) :
    (∀ w, (pdats m p c).arrAt w (cfgs p).N = V' (Pipeline.arrRef (cfgs p).spec w))
      ∧ ∀ b, b ∉ Finset.univ.image (Pipeline.arrRef (cfgs p).spec) → V' b = V b :=
  ⟨fun w => if h : w = o then h ▸ ho.symm else
      ((pdats m p c).arrAt_in w (hio w h).1 _).trans ((hA w).trans (hof _ (hio w h).2).symm),
    fun b hb => hof b fun e => hb (e ▸ Finset.mem_image_of_mem _ (Finset.mem_univ o))⟩

/-- A region whose windows' arrays are distinct buffers, each split out and put back whole. -/
def regL {p : Fin 5} (L : Pipeline.LaunchFacts (nD := nD) (τ := τ) cfgs p) (o : Fin (cfgs p).W) (hio : OneOut o)
    (hbody : ∀ c, BodyObligation (pdats m p c) defs₀ 𝒱z () Set.univ)
    (hq : ∀ c w, (pdats m p c).q w = fullShare) {W W' : Dev nD → Valuation τ sig (Elt F)}
    (hA : ∀ c w, (pdats m p c).A w = W c (Pipeline.arrRef (cfgs p).spec w))
    (hof : ∀ c (r : Ref sig .tc), r ≠ Pipeline.arrRef (cfgs p).spec o → W' c r = W c r)
    (ho : ∀ c, W' c (Pipeline.arrRef (cfgs p).spec o) = (pdats m p c).arrAt o (cfgs p).N)
    (hin : ∀ c, Pipeline.ΦA (cfgs p).spec c ⊢ (pdats m p c).Φ 0)
    (hout : ∀ c, (pdats m p c).Φ (Fin.last _) ⊢ Pipeline.ΦA (cfgs p).spec c) :
    Reg m p :=
  mkReg m L.win.to₀ L.block_pos L.stage_whole hbody (W := W) (W' := W')
    (fun c => Pipeline.arrays_of_unscopedBufs (pcfgs (F := F)) adm (pdats m) L.win L.arr_whole c
      ((pdats m p c).share_full (hq c)) _ (hA c))
    (fun c => have h := after_out m c o hio (hA c) (hof c) (ho c)
      Pipeline.unscopedBufs_of_arrays (pcfgs (F := F)) adm L.win L.arr_whole c (pdats m)
        ((pdats m p c).share_full (hq c)) _ _ _ h.1 h.2)
    hin hout

def reg0 : Reg m 0 :=
  mkReg m winFacts₀0 block_pos0 stage_whole0 (body_obligation0 (U0 m)) (W := W0 m) (W' := W1 m) (arrays0_of_unscopedBufs (U0 m))
    (fun c => have h := after_out m (p := 0) c 3 (by decide) (A_eq0 (U0 m) c) (W1_of m c) (W1_out m c)
      unscopedBufs_of_arrays0 (U0 m) (U1 m) c h.1 h.2)
    (hin0 (U0 m)) (hout0 (U0 m))
def reg1 : Reg m 1 :=
  regL m launch1 3 (by decide) (body_obligation1 (U1 m)) (fun _ _ => rfl) (A_eq1 (U1 m)) (W2_of m) (W2_out m) (hin1 (U1 m)) (hout1 (U1 m))
def reg2 : Reg m 2 :=
  regL m launch2 3 (by decide) (body_obligation2 (U2 m)) (fun _ _ => rfl) (A_eq2 (U2 m)) (W3_of m) (W3_out m) (hin2 (U2 m)) (hout2 (U2 m))
def reg3 : Reg m 3 :=
  regL m launch3 3 (by decide) (body_obligation3 (U3 m)) (fun _ _ => rfl) (A_eq3 (U3 m)) (W4_of m) (W4_out m) (hin3 (U3 m)) (hout3 (U3 m))
def reg4 : Reg m 4 :=
  regL m launch4 7 (by decide) (body_obligation4 (U5 m)) (fun _ _ => rfl) (A_eq4 (U5 m)) (W6_of m) (W6_out m) (fun _ => .rfl) (fun _ => .rfl)

abbrev segs : List (Pipeline.Seg (pcfgs (F := F)) adm (pdats m) () defs₀ 𝒱z Lz lvz) :=
  [ .region (reg0 m), .region (reg1 m), .region (reg2 m), .region (reg3 m), .host (hseg4 m), .region (reg4 m) ]
theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The items run in order; every final memory holds the last contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱z Lz lvz m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by rw [BI.bigSep_emp_const]; exact (sep_emp (PROP := sProp 𝕄)).2.trans fupd_intro)
    (T₀ := fun c => iprop(StableHlo.held (c : Thread nD τ) (Pipeline.ucRefs τ sig) (W0 m c) ∗ Rest c))
    (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, fun _ => sep_assoc.2⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      iframe Hh
      isplitl [Hp] <;> iexists _ <;> iassumption)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      iframe)
    (hQ := fun s h c => h c)

theorem run_value : θ_run defs (onTc (τ := τ) (main (F := F))) ⟨m, fun _ => 0, ρ⟩ (fun r => ∀ c : Dev nD,
      r.2.mem ((c.tc : Thread nD τ).loc main_v5) = o4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => by
    refine ⟨(h c _ (mem_uc main_v5 (by decide))).trans (W6_out m c), ?_, ?_, ?_, ?_⟩ <;>
      exact (h c _ (mem_uc _ (by decide))).trans (W6_arg m c _ (by decide) (by decide) (by decide) (by decide) (by decide) (by decide)))
    (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_value m ρ)

end Cert.Kernel.Hand

end
-- ==== Proof.KI.Cheb0.lean ====
import proofs.«115948_j41927470743646_1_alg».proof.Proof.Gen.KernelIdeal.Launch
import proofs.«115948_j41927470743646_1_alg».proof.Proof.Gen.KernelIdeal.Skeleton
import proofs.«115948_j41927470743646_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev lblk0 (c : Dev nD) (t : Fin cfg0.N) : Vec F S1024x2048 .f32 := iblk0 V c 0 t
abbrev pblk0 (c : Dev nD) (t : Fin cfg0.N) : Vec F S2048x256 .f32 := iblk0 V c 1 t
abbrev qblk0 (c : Dev nD) (t : Fin cfg0.N) : Vec F S1024x256 .f32 := iblk0 V c 2 t

abbrev first0 (i : grid0.Coords) : Prop := (Scalar.cmpi .ne (Scalar.extui (Scalar.cmpi .eq (BitVec.ofNat 32 (i 1).val) 0#32)) 0#32) = 1#1
theorem hfirst0 : ∀ t : Fin cfg0.N, first0 (grid0.coords t) ↔ t.val % 4 = 0 :=
  (by decide +kernel : ∀ t : Fin grid0.N, first0 (grid0.coords t) ↔ t.val % 4 = 0)
abbrev last0 (i : grid0.Coords) : Prop := k0_cond2 i = 1#1
theorem hlast0 : ∀ t : Fin cfg0.N, last0 (grid0.coords t) ↔ t.val % 4 = 3 :=
  (by decide +kernel : ∀ t : Fin grid0.N, last0 (grid0.coords t) ↔ t.val % 4 = 3)

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem idle0_3 : ∀ t : Fin cfg0.N, ¬last0 (grid0.coords t) → cfg0.idle 3 (grid0.coords t) = true ∧ (cfg0.win 3).flush t = false := by decide +kernel
theorem live0_3 : ∀ t : Fin cfg0.N, last0 (grid0.coords t) → cfg0.idle 3 (grid0.coords t) = false := by decide +kernel

/-- The accumulator after point n: the tiles' product added to zero at a first step, else to what point n - 1 left. -/
def acc0 (c : Dev nD) : (n : ℕ) → n < cfg0.N → Vec F S1024x256 .f32
  | 0, hn => k0_pay2 (lblk0 V c ⟨0, hn⟩) (pblk0 V c ⟨0, hn⟩) (k0_pay1 (F := F))
  | n + 1, hn =>
    if (n + 1) % 4 = 0 then k0_pay2 (lblk0 V c ⟨n + 1, hn⟩) (pblk0 V c ⟨n + 1, hn⟩) (k0_pay1 (F := F))
    else k0_pay2 (lblk0 V c ⟨n + 1, hn⟩) (pblk0 V c ⟨n + 1, hn⟩) (acc0 c n (Nat.lt_of_succ_lt hn))

theorem acc0_first (c : Dev nD) (t : Fin cfg0.N) (h : t.val % 4 = 0) :
    acc0 V c t.val t.isLt = k0_pay2 (lblk0 V c t) (pblk0 V c t) (k0_pay1 (F := F)) := by
  obtain ⟨n, hn⟩ := t
  cases n with
  | zero => rfl
  | succ n => exact if_pos h

theorem acc0_next (c : Dev nD) (t : Fin cfg0.N) (h : ¬t.val % 4 = 0) :
    acc0 V c t.val t.isLt
      = k0_pay2 (lblk0 V c t) (pblk0 V c t) (acc0 V c (t.val - 1) (Nat.lt_of_le_of_lt (Nat.sub_le _ _) t.isLt)) := by
  obtain ⟨n, hn⟩ := t
  cases n with
  | zero => exact absurd (Nat.zero_mod _) h
  | succ n => exact if_neg h

def out0 (c : Dev nD) (t : Fin cfg0.N) : Vec F S1024x256 .f32 :=
  k0_pay3 (acc0 V c t.val t.isLt) (qblk0 V c t)

abbrev scM0 : Memref sig .tc .vmem S1024x256 .f32 := Memref.whole cc0_scratch0

theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-- Before point n the accumulator holds what point n - 1 left (anything when n = 0). -/
def PhiS0 (c : Dev nD) (n : ℕ) (hn : n ≤ cfg0.N) : sProp 𝕄 :=
  iprop(∃ d, ⌜∀ h : n ≠ 0, d = acc0 V c (n - 1) (by omega)⌝ ∗ iprop(owns (c : Thread nD τ) scM0 fullShare d ∗ Pipeline.scopedRestBut (Ix := Unit) (Name := ℕ) (U := UR sig nD τ) (Lvl := ℕ) (Val := Elt F) spec0 c [cc0_scratch0]) ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ t := PhiS0 V c t.val (Nat.le_of_lt_succ t.isLt)
  q w := match w with
    | ⟨1, _⟩ => fullShare.left
    | ⟨2, _⟩ => fullShare.right
    | _ => fullShare
  owed _ := 0

theorem A_eq0 (c : Dev nD) (w : Fin cfg0.W) : (dat0 V c).A w = V c (Pipeline.arrRef spec0 w) := rfl
theorem after0_3 (c : Dev nD) (t : Fin cfg0.N) : (dat0 V c).after 3 t = out0 V c t := rfl

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

set_option maxHeartbeats 4000000 in
/-- The accumulator gains the tiles' product (from zero at a first step); only a last step writes the output tile. -/
theorem run0 (c : Dev nD) (E : Set ℕ) (i : grid0.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hne : first0 i → ¬last0 i)
    (x0 : Vec F S1024x2048 .f32) (x1 : Vec F S2048x256 .f32) (x2 xo xs : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (if last0 i then k0_pay3 (k0_pay2 x0 x1 (if first0 i then k0_pay1 (F := F) else xs)) x2 else xo)
            ∗ owns (c : Thread nD τ) arg6 fullShare (k0_pay2 x0 x1 (if first0 i then k0_pay1 (F := F) else xs))) -∗ K ⟨⟩))
      ⊢ wp frame (wpE (defs₀ (F := F)) Variants.none c none) E (cc0__cheb_kernel i arg2 harg2 arg3 harg3 arg4 harg4 arg5 harg5 arg6 harg6) K := by
  have hz : (![0, 0] : Fin 2 → ℕ) = fun _ => 0 := by funext a; fin_cases a <;> rfl
  by_cases hc0 : first0 i <;> by_cases hc1 : last0 i
  · exact absurd hc1 (hne hc0)
  all_goals
    first | rw [if_pos hc0] | rw [if_neg hc0]
    first | rw [if_pos hc1] | rw [if_neg hc1]
    simp only [cc0__cheb_kernel_eq_skeleton]; unfold cc0__cheb_kernel_skel owns
    iintro ⟨⟨%f0, %hf0, H0⟩, ⟨%f1, %hf1, H1⟩, ⟨%f2, %hf2, H2⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hfo; obtain rfl := harg6.eq_unread hfs
    sl_exec (disch := first | exact hc0 | exact hc1)
    sl_step
    iapply Hk
    isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [HO]
    · iexists _; isplitr
      swap; · iexact HO
      ipureintro
      first
      | exact hfo
      | (sl_unfold_words
         rw [View.read_writes_eq_canon _ _ _ (fun y => ⟨_, List.mem_cons_self, View.mem_set_unit_zero hz inb_S1024x256_S1024x256_0_0 y⟩)]
         rw [View.canon_cons_unit_zero (S := S1024x256) hz]
         simp only [View.readAt_eq_ld, hf0, hf1, hf2, hfs, View.ld_unit_zero (S := S1024x2048) hz, View.ld_unit_zero (S := S2048x256) hz, View.ld_unit_zero (S := S1024x256) hz, View.readCov_unit_zero (S := S1024x256) _ hz])
    iexists _; isplitr
    swap; · iexact HS
    ipureintro
    sl_unfold_words
    rw [View.read_writes_eq_canon _ _ _ (fun y => ⟨_, List.mem_cons_self, View.mem_set_unit_zero hz inb_S1024x256_S1024x256_0_0 y⟩)]
    rw [View.canon_cons_unit_zero (S := S1024x256) hz]
    simp only [View.readAt_eq_ld, hf0, hf1, hfs, View.ld_unit_zero (S := S1024x2048) hz, View.ld_unit_zero (S := S2048x256) hz, View.ld_unit_zero (S := S1024x256) hz, View.readCov_unit_zero (S := S1024x256) _ hz]

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

theorem leaves0 (c : Dev nD) (t : Fin cfg0.N) (w : Fin cfg0.W) (hl : cfg0.idle w (grid0.coords t) = false) :
    (dat0 V c).leavesExact w t = owns (c : Thread nD τ) ((cfg0.win w).stage (cfg0.slots t w)) fullShare ((dat0 V c).after w t) := by
  unfold Dat.leavesExact; rw [hl]

set_option maxHeartbeats 1600000 in
/-- At point t the invariant lends the accumulator and t mod 4 decides which of the two stores happen. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).Φ t.succ = PhiS0 V c (t.val + 1) t.isLt from rfl,
    show (dat0 V c).Φ t.castSucc = PhiS0 V c t.val (Nat.le_of_lt t.isLt) from rfl,
    leaves0 V c t 0 (live0_0 t), leaves0 V c t 1 (live0_1 t), leaves0 V c t 2 (live0_2 t)]
  unfold PhiS0
  have hne : first0 (grid0.coords t) → ¬last0 (grid0.coords t) := fun hf hl => by
    have := (hfirst0 t).mp hf; have := (hlast0 t).mp hl; omega
  have hacc : ∀ d, (∀ h : t.val ≠ 0, d = acc0 V c (t.val - 1) (by omega)) →
      k0_pay2 (lblk0 V c t) (pblk0 V c t) (if first0 (grid0.coords t) then k0_pay1 (F := F) else d) = acc0 V c t.val t.isLt := fun d hd => by
    by_cases h0 : t.val % 4 = 0
    · rw [if_pos ((hfirst0 t).mpr h0), acc0_first V c t h0]
    · rw [if_neg (fun h => h0 ((hfirst0 t).mp h)), acc0_next V c t h0, hd (fun e => h0 (by rw [e]))]
  by_cases hl : last0 (grid0.coords t)
  on_goal 1 => rw [leaves0 V c t 3 (live0_3 t hl), after0_3]; unfold out0
  on_goal 2 => rw [Dat.leavesExact_idle (dat0 V c) 3 t (idle0_3 t hl).1 (idle0_3 t hl).2]
  all_goals
    iintro ⟨⟨%ds, %hds, ⟨HS, HR⟩, Hg⟩, Ho, ⟨%d0, H0⟩, ⟨%d1, H1⟩, ⟨%d2, H2⟩, ⟨%d3, H3⟩⟩
    iapply (run0 c Set.univ (grid0.coords t) _ _ _ _ _ _ _ _ _ _ hne (lblk0 V c t) (pblk0 V c t) (qblk0 V c t) ((dat0 V c).before 3 t d3) ds _)
    isplitl [H0]; · iexact H0
    isplitl [H1]; · iexact H1
    isplitl [H2]; · iexact H2
    isplitl [H3]; · iexact H3
    isplitl [HS]; · iexact HS
    iintro ⟨H0, H1, H2, H3, HS⟩
    rw [hacc ds hds]
    first | rw [if_pos hl] | rw [if_neg hl]
    isplitl [HS HR Hg]
    · iexists (acc0 V c t.val t.isLt); isplitr; · ipureintro; exact fun _ => rfl
      isplitl [HS HR]
      · isplitl [HS]; · iexact HS
        iexact HR
      iexact Hg
    isplitl [Ho]; · iexact Ho
    isplitl [H0]; · iexact H0
    isplitl [H1]; · iexact H1
    isplitl [H2]; · iexact H2
    first | iexact H3 | (iexists _; iexact H3)

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [PhiA0_eq]; show _ ⊢ PhiS0 V c 0 (Nat.zero_le _); unfold PhiS0
  iintro ⟨⟨⟨%d, HS⟩, HR⟩, Hg⟩
  iexists d; isplitr; · ipureintro; exact fun h => absurd rfl h
  iframe

theorem hout0 (c : Dev nD) : (dat0 V c).Φ (Fin.last cfg0.N) ⊢ Pipeline.ΦA spec0 c := by
  rw [PhiA0_eq]; show PhiS0 V c (Fin.last cfg0.N).val (Nat.le_of_lt_succ (Fin.last cfg0.N).isLt) ⊢ _; unfold PhiS0
  iintro ⟨%d, -, ⟨HS, HR⟩, Hg⟩
  iframe HR Hg
  iexists d; iexact HS

end Cert.KernelIdeal.Hand

end
-- ==== Proof.KI.Cheb1.lean ====
import proofs.«115948_j41927470743646_1_alg».proof.Proof.Gen.KernelIdeal.Launch
import proofs.«115948_j41927470743646_1_alg».proof.Proof.Gen.KernelIdeal.Skeleton
import proofs.«115948_j41927470743646_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev lblk1 (c : Dev nD) (t : Fin cfg1.N) : Vec F S1024x2048 .f32 := iblk1 V c 0 t
abbrev pblk1 (c : Dev nD) (t : Fin cfg1.N) : Vec F S2048x256 .f32 := iblk1 V c 1 t
abbrev qblk1 (c : Dev nD) (t : Fin cfg1.N) : Vec F S1024x256 .f32 := iblk1 V c 2 t

abbrev first1 (i : grid1.Coords) : Prop := (Scalar.cmpi .ne (Scalar.extui (Scalar.cmpi .eq (BitVec.ofNat 32 (i 1).val) 0#32)) 0#32) = 1#1
theorem hfirst1 : ∀ t : Fin cfg1.N, first1 (grid1.coords t) ↔ t.val % 4 = 0 :=
  (by decide +kernel : ∀ t : Fin grid1.N, first1 (grid1.coords t) ↔ t.val % 4 = 0)
abbrev last1 (i : grid1.Coords) : Prop := k1_cond2 i = 1#1
theorem hlast1 : ∀ t : Fin cfg1.N, last1 (grid1.coords t) ↔ t.val % 4 = 3 :=
  (by decide +kernel : ∀ t : Fin grid1.N, last1 (grid1.coords t) ↔ t.val % 4 = 3)

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem idle1_3 : ∀ t : Fin cfg1.N, ¬last1 (grid1.coords t) → cfg1.idle 3 (grid1.coords t) = true ∧ (cfg1.win 3).flush t = false := by decide +kernel
theorem live1_3 : ∀ t : Fin cfg1.N, last1 (grid1.coords t) → cfg1.idle 3 (grid1.coords t) = false := by decide +kernel

/-- The accumulator after point n: the tiles' product added to zero at a first step, else to what point n - 1 left. -/
def acc1 (c : Dev nD) : (n : ℕ) → n < cfg1.N → Vec F S1024x256 .f32
  | 0, hn => k1_pay2 (lblk1 V c ⟨0, hn⟩) (pblk1 V c ⟨0, hn⟩) (k1_pay1 (F := F))
  | n + 1, hn =>
    if (n + 1) % 4 = 0 then k1_pay2 (lblk1 V c ⟨n + 1, hn⟩) (pblk1 V c ⟨n + 1, hn⟩) (k1_pay1 (F := F))
    else k1_pay2 (lblk1 V c ⟨n + 1, hn⟩) (pblk1 V c ⟨n + 1, hn⟩) (acc1 c n (Nat.lt_of_succ_lt hn))

theorem acc1_first (c : Dev nD) (t : Fin cfg1.N) (h : t.val % 4 = 0) :
    acc1 V c t.val t.isLt = k1_pay2 (lblk1 V c t) (pblk1 V c t) (k1_pay1 (F := F)) := by
  obtain ⟨n, hn⟩ := t
  cases n with
  | zero => rfl
  | succ n => exact if_pos h

theorem acc1_next (c : Dev nD) (t : Fin cfg1.N) (h : ¬t.val % 4 = 0) :
    acc1 V c t.val t.isLt
      = k1_pay2 (lblk1 V c t) (pblk1 V c t) (acc1 V c (t.val - 1) (Nat.lt_of_le_of_lt (Nat.sub_le _ _) t.isLt)) := by
  obtain ⟨n, hn⟩ := t
  cases n with
  | zero => exact absurd (Nat.zero_mod _) h
  | succ n => exact if_neg h

def out1 (c : Dev nD) (t : Fin cfg1.N) : Vec F S1024x256 .f32 :=
  k1_pay3 (acc1 V c t.val t.isLt) (qblk1 V c t)

abbrev scM1 : Memref sig .tc .vmem S1024x256 .f32 := Memref.whole cc1_scratch0

theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-- Before point n the accumulator holds what point n - 1 left (anything when n = 0). -/
def PhiS1 (c : Dev nD) (n : ℕ) (hn : n ≤ cfg1.N) : sProp 𝕄 :=
  iprop(∃ d, ⌜∀ h : n ≠ 0, d = acc1 V c (n - 1) (by omega)⌝ ∗ iprop(owns (c : Thread nD τ) scM1 fullShare d ∗ Pipeline.scopedRestBut (Ix := Unit) (Name := ℕ) (U := UR sig nD τ) (Lvl := ℕ) (Val := Elt F) spec1 c [cc1_scratch0]) ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := rfl
theorem after1_3 (c : Dev nD) (t : Fin cfg1.N) : (dat1 V c).after 3 t = out1 V c t := rfl

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

set_option maxHeartbeats 4000000 in
/-- The accumulator gains the tiles' product (from zero at a first step); only a last step writes the output tile. -/
theorem run1 (c : Dev nD) (E : Set ℕ) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hne : first1 i → ¬last1 i)
    (x0 : Vec F S1024x2048 .f32) (x1 : Vec F S2048x256 .f32) (x2 xo xs : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (if last1 i then k1_pay3 (k1_pay2 x0 x1 (if first1 i then k1_pay1 (F := F) else xs)) x2 else xo)
            ∗ owns (c : Thread nD τ) arg6 fullShare (k1_pay2 x0 x1 (if first1 i then k1_pay1 (F := F) else xs))) -∗ K ⟨⟩))
      ⊢ wp frame (wpE (defs₀ (F := F)) Variants.none c none) E (cc1__cheb_kernel i arg2 harg2 arg3 harg3 arg4 harg4 arg5 harg5 arg6 harg6) K := by
  have hz : (![0, 0] : Fin 2 → ℕ) = fun _ => 0 := by funext a; fin_cases a <;> rfl
  by_cases hc0 : first1 i <;> by_cases hc1 : last1 i
  · exact absurd hc1 (hne hc0)
  all_goals
    first | rw [if_pos hc0] | rw [if_neg hc0]
    first | rw [if_pos hc1] | rw [if_neg hc1]
    simp only [cc1__cheb_kernel_eq_skeleton]; unfold cc1__cheb_kernel_skel owns
    iintro ⟨⟨%f0, %hf0, H0⟩, ⟨%f1, %hf1, H1⟩, ⟨%f2, %hf2, H2⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hfo; obtain rfl := harg6.eq_unread hfs
    sl_exec (disch := first | exact hc0 | exact hc1)
    sl_step
    iapply Hk
    isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [HO]
    · iexists _; isplitr
      swap; · iexact HO
      ipureintro
      first
      | exact hfo
      | (sl_unfold_words
         rw [View.read_writes_eq_canon _ _ _ (fun y => ⟨_, List.mem_cons_self, View.mem_set_unit_zero hz inb_S1024x256_S1024x256_0_0 y⟩)]
         rw [View.canon_cons_unit_zero (S := S1024x256) hz]
         simp only [View.readAt_eq_ld, hf0, hf1, hf2, hfs, View.ld_unit_zero (S := S1024x2048) hz, View.ld_unit_zero (S := S2048x256) hz, View.ld_unit_zero (S := S1024x256) hz, View.readCov_unit_zero (S := S1024x256) _ hz])
    iexists _; isplitr
    swap; · iexact HS
    ipureintro
    sl_unfold_words
    rw [View.read_writes_eq_canon _ _ _ (fun y => ⟨_, List.mem_cons_self, View.mem_set_unit_zero hz inb_S1024x256_S1024x256_0_0 y⟩)]
    rw [View.canon_cons_unit_zero (S := S1024x256) hz]
    simp only [View.readAt_eq_ld, hf0, hf1, hfs, View.ld_unit_zero (S := S1024x2048) hz, View.ld_unit_zero (S := S2048x256) hz, View.ld_unit_zero (S := S1024x256) hz, View.readCov_unit_zero (S := S1024x256) _ hz]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

theorem leaves1 (c : Dev nD) (t : Fin cfg1.N) (w : Fin cfg1.W) (hl : cfg1.idle w (grid1.coords t) = false) :
    (dat1 V c).leavesExact w t = owns (c : Thread nD τ) ((cfg1.win w).stage (cfg1.slots t w)) fullShare ((dat1 V c).after w t) := by
  unfold Dat.leavesExact; rw [hl]

set_option maxHeartbeats 1600000 in
/-- At point t the invariant lends the accumulator and t mod 4 decides which of the two stores happen. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = PhiS1 V c (t.val + 1) t.isLt from rfl,
    show (dat1 V c).Φ t.castSucc = PhiS1 V c t.val (Nat.le_of_lt t.isLt) from rfl,
    leaves1 V c t 0 (live1_0 t), leaves1 V c t 1 (live1_1 t), leaves1 V c t 2 (live1_2 t)]
  unfold PhiS1
  have hne : first1 (grid1.coords t) → ¬last1 (grid1.coords t) := fun hf hl => by
    have := (hfirst1 t).mp hf; have := (hlast1 t).mp hl; omega
  have hacc : ∀ d, (∀ h : t.val ≠ 0, d = acc1 V c (t.val - 1) (by omega)) →
      k1_pay2 (lblk1 V c t) (pblk1 V c t) (if first1 (grid1.coords t) then k1_pay1 (F := F) else d) = acc1 V c t.val t.isLt := fun d hd => by
    by_cases h0 : t.val % 4 = 0
    · rw [if_pos ((hfirst1 t).mpr h0), acc1_first V c t h0]
    · rw [if_neg (fun h => h0 ((hfirst1 t).mp h)), acc1_next V c t h0, hd (fun e => h0 (by rw [e]))]
  by_cases hl : last1 (grid1.coords t)
  on_goal 1 => rw [leaves1 V c t 3 (live1_3 t hl), after1_3]; unfold out1
  on_goal 2 => rw [Dat.leavesExact_idle (dat1 V c) 3 t (idle1_3 t hl).1 (idle1_3 t hl).2]
  all_goals
    iintro ⟨⟨%ds, %hds, ⟨HS, HR⟩, Hg⟩, Ho, ⟨%d0, H0⟩, ⟨%d1, H1⟩, ⟨%d2, H2⟩, ⟨%d3, H3⟩⟩
    iapply (run1 c Set.univ (grid1.coords t) _ _ _ _ _ _ _ _ _ _ hne (lblk1 V c t) (pblk1 V c t) (qblk1 V c t) ((dat1 V c).before 3 t d3) ds _)
    isplitl [H0]; · iexact H0
    isplitl [H1]; · iexact H1
    isplitl [H2]; · iexact H2
    isplitl [H3]; · iexact H3
    isplitl [HS]; · iexact HS
    iintro ⟨H0, H1, H2, H3, HS⟩
    rw [hacc ds hds]
    first | rw [if_pos hl] | rw [if_neg hl]
    isplitl [HS HR Hg]
    · iexists (acc1 V c t.val t.isLt); isplitr; · ipureintro; exact fun _ => rfl
      isplitl [HS HR]
      · isplitl [HS]; · iexact HS
        iexact HR
      iexact Hg
    isplitl [Ho]; · iexact Ho
    isplitl [H0]; · iexact H0
    isplitl [H1]; · iexact H1
    isplitl [H2]; · iexact H2
    first | iexact H3 | (iexists _; iexact H3)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [PhiA1_eq]; show _ ⊢ PhiS1 V c 0 (Nat.zero_le _); unfold PhiS1
  iintro ⟨⟨⟨%d, HS⟩, HR⟩, Hg⟩
  iexists d; isplitr; · ipureintro; exact fun h => absurd rfl h
  iframe

theorem hout1 (c : Dev nD) : (dat1 V c).Φ (Fin.last cfg1.N) ⊢ Pipeline.ΦA spec1 c := by
  rw [PhiA1_eq]; show PhiS1 V c (Fin.last cfg1.N).val (Nat.le_of_lt_succ (Fin.last cfg1.N).isLt) ⊢ _; unfold PhiS1
  iintro ⟨%d, -, ⟨HS, HR⟩, Hg⟩
  iframe HR Hg
  iexists d; iexact HS

end Cert.KernelIdeal.Hand

end
-- ==== Proof.KI.Cheb2.lean ====
import proofs.«115948_j41927470743646_1_alg».proof.Proof.Gen.KernelIdeal.Launch
import proofs.«115948_j41927470743646_1_alg».proof.Proof.Gen.KernelIdeal.Skeleton
import proofs.«115948_j41927470743646_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev lblk2 (c : Dev nD) (t : Fin cfg2.N) : Vec F S1024x2048 .f32 := iblk2 V c 0 t
abbrev pblk2 (c : Dev nD) (t : Fin cfg2.N) : Vec F S2048x256 .f32 := iblk2 V c 1 t
abbrev qblk2 (c : Dev nD) (t : Fin cfg2.N) : Vec F S1024x256 .f32 := iblk2 V c 2 t

abbrev first2 (i : grid2.Coords) : Prop := (Scalar.cmpi .ne (Scalar.extui (Scalar.cmpi .eq (BitVec.ofNat 32 (i 1).val) 0#32)) 0#32) = 1#1
theorem hfirst2 : ∀ t : Fin cfg2.N, first2 (grid2.coords t) ↔ t.val % 4 = 0 :=
  (by decide +kernel : ∀ t : Fin grid2.N, first2 (grid2.coords t) ↔ t.val % 4 = 0)
abbrev last2 (i : grid2.Coords) : Prop := k2_cond2 i = 1#1
theorem hlast2 : ∀ t : Fin cfg2.N, last2 (grid2.coords t) ↔ t.val % 4 = 3 :=
  (by decide +kernel : ∀ t : Fin grid2.N, last2 (grid2.coords t) ↔ t.val % 4 = 3)

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem idle2_3 : ∀ t : Fin cfg2.N, ¬last2 (grid2.coords t) → cfg2.idle 3 (grid2.coords t) = true ∧ (cfg2.win 3).flush t = false := by decide +kernel
theorem live2_3 : ∀ t : Fin cfg2.N, last2 (grid2.coords t) → cfg2.idle 3 (grid2.coords t) = false := by decide +kernel

/-- The accumulator after point n: the tiles' product added to zero at a first step, else to what point n - 1 left. -/
def acc2 (c : Dev nD) : (n : ℕ) → n < cfg2.N → Vec F S1024x256 .f32
  | 0, hn => k2_pay2 (lblk2 V c ⟨0, hn⟩) (pblk2 V c ⟨0, hn⟩) (k2_pay1 (F := F))
  | n + 1, hn =>
    if (n + 1) % 4 = 0 then k2_pay2 (lblk2 V c ⟨n + 1, hn⟩) (pblk2 V c ⟨n + 1, hn⟩) (k2_pay1 (F := F))
    else k2_pay2 (lblk2 V c ⟨n + 1, hn⟩) (pblk2 V c ⟨n + 1, hn⟩) (acc2 c n (Nat.lt_of_succ_lt hn))

theorem acc2_first (c : Dev nD) (t : Fin cfg2.N) (h : t.val % 4 = 0) :
    acc2 V c t.val t.isLt = k2_pay2 (lblk2 V c t) (pblk2 V c t) (k2_pay1 (F := F)) := by
  obtain ⟨n, hn⟩ := t
  cases n with
  | zero => rfl
  | succ n => exact if_pos h

theorem acc2_next (c : Dev nD) (t : Fin cfg2.N) (h : ¬t.val % 4 = 0) :
    acc2 V c t.val t.isLt
      = k2_pay2 (lblk2 V c t) (pblk2 V c t) (acc2 V c (t.val - 1) (Nat.lt_of_le_of_lt (Nat.sub_le _ _) t.isLt)) := by
  obtain ⟨n, hn⟩ := t
  cases n with
  | zero => exact absurd (Nat.zero_mod _) h
  | succ n => exact if_neg h

def out2 (c : Dev nD) (t : Fin cfg2.N) : Vec F S1024x256 .f32 :=
  k2_pay3 (acc2 V c t.val t.isLt) (qblk2 V c t)

abbrev scM2 : Memref sig .tc .vmem S1024x256 .f32 := Memref.whole cc2_scratch0

theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-- Before point n the accumulator holds what point n - 1 left (anything when n = 0). -/
def PhiS2 (c : Dev nD) (n : ℕ) (hn : n ≤ cfg2.N) : sProp 𝕄 :=
  iprop(∃ d, ⌜∀ h : n ≠ 0, d = acc2 V c (n - 1) (by omega)⌝ ∗ iprop(owns (c : Thread nD τ) scM2 fullShare d ∗ Pipeline.scopedRestBut (Ix := Unit) (Name := ℕ) (U := UR sig nD τ) (Lvl := ℕ) (Val := Elt F) spec2 c [cc2_scratch0]) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := rfl
theorem after2_3 (c : Dev nD) (t : Fin cfg2.N) : (dat2 V c).after 3 t = out2 V c t := rfl

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl

set_option maxHeartbeats 4000000 in
/-- The accumulator gains the tiles' product (from zero at a first step); only a last step writes the output tile. -/
theorem run2 (c : Dev nD) (E : Set ℕ) (i : grid2.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hne : first2 i → ¬last2 i)
    (x0 : Vec F S1024x2048 .f32) (x1 : Vec F S2048x256 .f32) (x2 xo xs : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (if last2 i then k2_pay3 (k2_pay2 x0 x1 (if first2 i then k2_pay1 (F := F) else xs)) x2 else xo)
            ∗ owns (c : Thread nD τ) arg6 fullShare (k2_pay2 x0 x1 (if first2 i then k2_pay1 (F := F) else xs))) -∗ K ⟨⟩))
      ⊢ wp frame (wpE (defs₀ (F := F)) Variants.none c none) E (cc2__cheb_kernel i arg2 harg2 arg3 harg3 arg4 harg4 arg5 harg5 arg6 harg6) K := by
  have hz : (![0, 0] : Fin 2 → ℕ) = fun _ => 0 := by funext a; fin_cases a <;> rfl
  by_cases hc0 : first2 i <;> by_cases hc1 : last2 i
  · exact absurd hc1 (hne hc0)
  all_goals
    first | rw [if_pos hc0] | rw [if_neg hc0]
    first | rw [if_pos hc1] | rw [if_neg hc1]
    simp only [cc2__cheb_kernel_eq_skeleton]; unfold cc2__cheb_kernel_skel owns
    iintro ⟨⟨%f0, %hf0, H0⟩, ⟨%f1, %hf1, H1⟩, ⟨%f2, %hf2, H2⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hfo; obtain rfl := harg6.eq_unread hfs
    sl_exec (disch := first | exact hc0 | exact hc1)
    sl_step
    iapply Hk
    isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [HO]
    · iexists _; isplitr
      swap; · iexact HO
      ipureintro
      first
      | exact hfo
      | (sl_unfold_words
         rw [View.read_writes_eq_canon _ _ _ (fun y => ⟨_, List.mem_cons_self, View.mem_set_unit_zero hz inb_S1024x256_S1024x256_0_0 y⟩)]
         rw [View.canon_cons_unit_zero (S := S1024x256) hz]
         simp only [View.readAt_eq_ld, hf0, hf1, hf2, hfs, View.ld_unit_zero (S := S1024x2048) hz, View.ld_unit_zero (S := S2048x256) hz, View.ld_unit_zero (S := S1024x256) hz, View.readCov_unit_zero (S := S1024x256) _ hz])
    iexists _; isplitr
    swap; · iexact HS
    ipureintro
    sl_unfold_words
    rw [View.read_writes_eq_canon _ _ _ (fun y => ⟨_, List.mem_cons_self, View.mem_set_unit_zero hz inb_S1024x256_S1024x256_0_0 y⟩)]
    rw [View.canon_cons_unit_zero (S := S1024x256) hz]
    simp only [View.readAt_eq_ld, hf0, hf1, hfs, View.ld_unit_zero (S := S1024x2048) hz, View.ld_unit_zero (S := S2048x256) hz, View.ld_unit_zero (S := S1024x256) hz, View.readCov_unit_zero (S := S1024x256) _ hz]

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t)

theorem leaves2 (c : Dev nD) (t : Fin cfg2.N) (w : Fin cfg2.W) (hl : cfg2.idle w (grid2.coords t) = false) :
    (dat2 V c).leavesExact w t = owns (c : Thread nD τ) ((cfg2.win w).stage (cfg2.slots t w)) fullShare ((dat2 V c).after w t) := by
  unfold Dat.leavesExact; rw [hl]

set_option maxHeartbeats 1600000 in
/-- At point t the invariant lends the accumulator and t mod 4 decides which of the two stores happen. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = PhiS2 V c (t.val + 1) t.isLt from rfl,
    show (dat2 V c).Φ t.castSucc = PhiS2 V c t.val (Nat.le_of_lt t.isLt) from rfl,
    leaves2 V c t 0 (live2_0 t), leaves2 V c t 1 (live2_1 t), leaves2 V c t 2 (live2_2 t)]
  unfold PhiS2
  have hne : first2 (grid2.coords t) → ¬last2 (grid2.coords t) := fun hf hl => by
    have := (hfirst2 t).mp hf; have := (hlast2 t).mp hl; omega
  have hacc : ∀ d, (∀ h : t.val ≠ 0, d = acc2 V c (t.val - 1) (by omega)) →
      k2_pay2 (lblk2 V c t) (pblk2 V c t) (if first2 (grid2.coords t) then k2_pay1 (F := F) else d) = acc2 V c t.val t.isLt := fun d hd => by
    by_cases h0 : t.val % 4 = 0
    · rw [if_pos ((hfirst2 t).mpr h0), acc2_first V c t h0]
    · rw [if_neg (fun h => h0 ((hfirst2 t).mp h)), acc2_next V c t h0, hd (fun e => h0 (by rw [e]))]
  by_cases hl : last2 (grid2.coords t)
  on_goal 1 => rw [leaves2 V c t 3 (live2_3 t hl), after2_3]; unfold out2
  on_goal 2 => rw [Dat.leavesExact_idle (dat2 V c) 3 t (idle2_3 t hl).1 (idle2_3 t hl).2]
  all_goals
    iintro ⟨⟨%ds, %hds, ⟨HS, HR⟩, Hg⟩, Ho, ⟨%d0, H0⟩, ⟨%d1, H1⟩, ⟨%d2, H2⟩, ⟨%d3, H3⟩⟩
    iapply (run2 c Set.univ (grid2.coords t) _ _ _ _ _ _ _ _ _ _ hne (lblk2 V c t) (pblk2 V c t) (qblk2 V c t) ((dat2 V c).before 3 t d3) ds _)
    isplitl [H0]; · iexact H0
    isplitl [H1]; · iexact H1
    isplitl [H2]; · iexact H2
    isplitl [H3]; · iexact H3
    isplitl [HS]; · iexact HS
    iintro ⟨H0, H1, H2, H3, HS⟩
    rw [hacc ds hds]
    first | rw [if_pos hl] | rw [if_neg hl]
    isplitl [HS HR Hg]
    · iexists (acc2 V c t.val t.isLt); isplitr; · ipureintro; exact fun _ => rfl
      isplitl [HS HR]
      · isplitl [HS]; · iexact HS
        iexact HR
      iexact Hg
    isplitl [Ho]; · iexact Ho
    isplitl [H0]; · iexact H0
    isplitl [H1]; · iexact H1
    isplitl [H2]; · iexact H2
    first | iexact H3 | (iexists _; iexact H3)

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [PhiA2_eq]; show _ ⊢ PhiS2 V c 0 (Nat.zero_le _); unfold PhiS2
  iintro ⟨⟨⟨%d, HS⟩, HR⟩, Hg⟩
  iexists d; isplitr; · ipureintro; exact fun h => absurd rfl h
  iframe

theorem hout2 (c : Dev nD) : (dat2 V c).Φ (Fin.last cfg2.N) ⊢ Pipeline.ΦA spec2 c := by
  rw [PhiA2_eq]; show PhiS2 V c (Fin.last cfg2.N).val (Nat.le_of_lt_succ (Fin.last cfg2.N).isLt) ⊢ _; unfold PhiS2
  iintro ⟨%d, -, ⟨HS, HR⟩, Hg⟩
  iframe HR Hg
  iexists d; iexact HS

end Cert.KernelIdeal.Hand

end
-- ==== Proof.KI.Cheb3.lean ====
import proofs.«115948_j41927470743646_1_alg».proof.Proof.Gen.KernelIdeal.Launch
import proofs.«115948_j41927470743646_1_alg».proof.Proof.Gen.KernelIdeal.Skeleton
import proofs.«115948_j41927470743646_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev lblk3 (c : Dev nD) (t : Fin cfg3.N) : Vec F S1024x2048 .f32 := iblk3 V c 0 t
abbrev pblk3 (c : Dev nD) (t : Fin cfg3.N) : Vec F S2048x256 .f32 := iblk3 V c 1 t
abbrev qblk3 (c : Dev nD) (t : Fin cfg3.N) : Vec F S1024x256 .f32 := iblk3 V c 2 t

abbrev first3 (i : grid3.Coords) : Prop := (Scalar.cmpi .ne (Scalar.extui (Scalar.cmpi .eq (BitVec.ofNat 32 (i 1).val) 0#32)) 0#32) = 1#1
theorem hfirst3 : ∀ t : Fin cfg3.N, first3 (grid3.coords t) ↔ t.val % 4 = 0 :=
  (by decide +kernel : ∀ t : Fin grid3.N, first3 (grid3.coords t) ↔ t.val % 4 = 0)
abbrev last3 (i : grid3.Coords) : Prop := k3_cond2 i = 1#1
theorem hlast3 : ∀ t : Fin cfg3.N, last3 (grid3.coords t) ↔ t.val % 4 = 3 :=
  (by decide +kernel : ∀ t : Fin grid3.N, last3 (grid3.coords t) ↔ t.val % 4 = 3)

theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
theorem idle3_3 : ∀ t : Fin cfg3.N, ¬last3 (grid3.coords t) → cfg3.idle 3 (grid3.coords t) = true ∧ (cfg3.win 3).flush t = false := by decide +kernel
theorem live3_3 : ∀ t : Fin cfg3.N, last3 (grid3.coords t) → cfg3.idle 3 (grid3.coords t) = false := by decide +kernel

/-- The accumulator after point n: the tiles' product added to zero at a first step, else to what point n - 1 left. -/
def acc3 (c : Dev nD) : (n : ℕ) → n < cfg3.N → Vec F S1024x256 .f32
  | 0, hn => k3_pay2 (lblk3 V c ⟨0, hn⟩) (pblk3 V c ⟨0, hn⟩) (k3_pay1 (F := F))
  | n + 1, hn =>
    if (n + 1) % 4 = 0 then k3_pay2 (lblk3 V c ⟨n + 1, hn⟩) (pblk3 V c ⟨n + 1, hn⟩) (k3_pay1 (F := F))
    else k3_pay2 (lblk3 V c ⟨n + 1, hn⟩) (pblk3 V c ⟨n + 1, hn⟩) (acc3 c n (Nat.lt_of_succ_lt hn))

theorem acc3_first (c : Dev nD) (t : Fin cfg3.N) (h : t.val % 4 = 0) :
    acc3 V c t.val t.isLt = k3_pay2 (lblk3 V c t) (pblk3 V c t) (k3_pay1 (F := F)) := by
  obtain ⟨n, hn⟩ := t
  cases n with
  | zero => rfl
  | succ n => exact if_pos h

theorem acc3_next (c : Dev nD) (t : Fin cfg3.N) (h : ¬t.val % 4 = 0) :
    acc3 V c t.val t.isLt
      = k3_pay2 (lblk3 V c t) (pblk3 V c t) (acc3 V c (t.val - 1) (Nat.lt_of_le_of_lt (Nat.sub_le _ _) t.isLt)) := by
  obtain ⟨n, hn⟩ := t
  cases n with
  | zero => exact absurd (Nat.zero_mod _) h
  | succ n => exact if_neg h

def out3 (c : Dev nD) (t : Fin cfg3.N) : Vec F S1024x256 .f32 :=
  k3_pay3 (acc3 V c t.val t.isLt) (qblk3 V c t)

abbrev scM3 : Memref sig .tc .vmem S1024x256 .f32 := Memref.whole cc3_scratch0

theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-- Before point n the accumulator holds what point n - 1 left (anything when n = 0). -/
def PhiS3 (c : Dev nD) (n : ℕ) (hn : n ≤ cfg3.N) : sProp 𝕄 :=
  iprop(∃ d, ⌜∀ h : n ≠ 0, d = acc3 V c (n - 1) (by omega)⌝ ∗ iprop(owns (c : Thread nD τ) scM3 fullShare d ∗ Pipeline.scopedRestBut (Ix := Unit) (Name := ℕ) (U := UR sig nD τ) (Lvl := ℕ) (Val := Elt F) spec3 c [cc3_scratch0]) ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := rfl
theorem after3_3 (c : Dev nD) (t : Fin cfg3.N) : (dat3 V c).after 3 t = out3 V c t := rfl

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl

set_option maxHeartbeats 4000000 in
/-- The accumulator gains the tiles' product (from zero at a first step); only a last step writes the output tile. -/
theorem run3 (c : Dev nD) (E : Set ℕ) (i : grid3.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hne : first3 i → ¬last3 i)
    (x0 : Vec F S1024x2048 .f32) (x1 : Vec F S2048x256 .f32) (x2 xo xs : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (if last3 i then k3_pay3 (k3_pay2 x0 x1 (if first3 i then k3_pay1 (F := F) else xs)) x2 else xo)
            ∗ owns (c : Thread nD τ) arg6 fullShare (k3_pay2 x0 x1 (if first3 i then k3_pay1 (F := F) else xs))) -∗ K ⟨⟩))
      ⊢ wp frame (wpE (defs₀ (F := F)) Variants.none c none) E (cc3__cheb_kernel i arg2 harg2 arg3 harg3 arg4 harg4 arg5 harg5 arg6 harg6) K := by
  have hz : (![0, 0] : Fin 2 → ℕ) = fun _ => 0 := by funext a; fin_cases a <;> rfl
  by_cases hc0 : first3 i <;> by_cases hc1 : last3 i
  · exact absurd hc1 (hne hc0)
  all_goals
    first | rw [if_pos hc0] | rw [if_neg hc0]
    first | rw [if_pos hc1] | rw [if_neg hc1]
    simp only [cc3__cheb_kernel_eq_skeleton]; unfold cc3__cheb_kernel_skel owns
    iintro ⟨⟨%f0, %hf0, H0⟩, ⟨%f1, %hf1, H1⟩, ⟨%f2, %hf2, H2⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hfo; obtain rfl := harg6.eq_unread hfs
    sl_exec (disch := first | exact hc0 | exact hc1)
    sl_step
    iapply Hk
    isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [HO]
    · iexists _; isplitr
      swap; · iexact HO
      ipureintro
      first
      | exact hfo
      | (sl_unfold_words
         rw [View.read_writes_eq_canon _ _ _ (fun y => ⟨_, List.mem_cons_self, View.mem_set_unit_zero hz inb_S1024x256_S1024x256_0_0 y⟩)]
         rw [View.canon_cons_unit_zero (S := S1024x256) hz]
         simp only [View.readAt_eq_ld, hf0, hf1, hf2, hfs, View.ld_unit_zero (S := S1024x2048) hz, View.ld_unit_zero (S := S2048x256) hz, View.ld_unit_zero (S := S1024x256) hz, View.readCov_unit_zero (S := S1024x256) _ hz])
    iexists _; isplitr
    swap; · iexact HS
    ipureintro
    sl_unfold_words
    rw [View.read_writes_eq_canon _ _ _ (fun y => ⟨_, List.mem_cons_self, View.mem_set_unit_zero hz inb_S1024x256_S1024x256_0_0 y⟩)]
    rw [View.canon_cons_unit_zero (S := S1024x256) hz]
    simp only [View.readAt_eq_ld, hf0, hf1, hfs, View.ld_unit_zero (S := S1024x2048) hz, View.ld_unit_zero (S := S2048x256) hz, View.ld_unit_zero (S := S1024x256) hz, View.readCov_unit_zero (S := S1024x256) _ hz]

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t ∗ (dat3 V c).leavesExact 3 t)

theorem leaves3 (c : Dev nD) (t : Fin cfg3.N) (w : Fin cfg3.W) (hl : cfg3.idle w (grid3.coords t) = false) :
    (dat3 V c).leavesExact w t = owns (c : Thread nD τ) ((cfg3.win w).stage (cfg3.slots t w)) fullShare ((dat3 V c).after w t) := by
  unfold Dat.leavesExact; rw [hl]

set_option maxHeartbeats 1600000 in
/-- At point t the invariant lends the accumulator and t mod 4 decides which of the two stores happen. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl,
    show (dat3 V c).Φ t.succ = PhiS3 V c (t.val + 1) t.isLt from rfl,
    show (dat3 V c).Φ t.castSucc = PhiS3 V c t.val (Nat.le_of_lt t.isLt) from rfl,
    leaves3 V c t 0 (live3_0 t), leaves3 V c t 1 (live3_1 t), leaves3 V c t 2 (live3_2 t)]
  unfold PhiS3
  have hne : first3 (grid3.coords t) → ¬last3 (grid3.coords t) := fun hf hl => by
    have := (hfirst3 t).mp hf; have := (hlast3 t).mp hl; omega
  have hacc : ∀ d, (∀ h : t.val ≠ 0, d = acc3 V c (t.val - 1) (by omega)) →
      k3_pay2 (lblk3 V c t) (pblk3 V c t) (if first3 (grid3.coords t) then k3_pay1 (F := F) else d) = acc3 V c t.val t.isLt := fun d hd => by
    by_cases h0 : t.val % 4 = 0
    · rw [if_pos ((hfirst3 t).mpr h0), acc3_first V c t h0]
    · rw [if_neg (fun h => h0 ((hfirst3 t).mp h)), acc3_next V c t h0, hd (fun e => h0 (by rw [e]))]
  by_cases hl : last3 (grid3.coords t)
  on_goal 1 => rw [leaves3 V c t 3 (live3_3 t hl), after3_3]; unfold out3
  on_goal 2 => rw [Dat.leavesExact_idle (dat3 V c) 3 t (idle3_3 t hl).1 (idle3_3 t hl).2]
  all_goals
    iintro ⟨⟨%ds, %hds, ⟨HS, HR⟩, Hg⟩, Ho, ⟨%d0, H0⟩, ⟨%d1, H1⟩, ⟨%d2, H2⟩, ⟨%d3, H3⟩⟩
    iapply (run3 c Set.univ (grid3.coords t) _ _ _ _ _ _ _ _ _ _ hne (lblk3 V c t) (pblk3 V c t) (qblk3 V c t) ((dat3 V c).before 3 t d3) ds _)
    isplitl [H0]; · iexact H0
    isplitl [H1]; · iexact H1
    isplitl [H2]; · iexact H2
    isplitl [H3]; · iexact H3
    isplitl [HS]; · iexact HS
    iintro ⟨H0, H1, H2, H3, HS⟩
    rw [hacc ds hds]
    first | rw [if_pos hl] | rw [if_neg hl]
    isplitl [HS HR Hg]
    · iexists (acc3 V c t.val t.isLt); isplitr; · ipureintro; exact fun _ => rfl
      isplitl [HS HR]
      · isplitl [HS]; · iexact HS
        iexact HR
      iexact Hg
    isplitl [Ho]; · iexact Ho
    isplitl [H0]; · iexact H0
    isplitl [H1]; · iexact H1
    isplitl [H2]; · iexact H2
    first | iexact H3 | (iexists _; iexact H3)

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [PhiA3_eq]; show _ ⊢ PhiS3 V c 0 (Nat.zero_le _); unfold PhiS3
  iintro ⟨⟨⟨%d, HS⟩, HR⟩, Hg⟩
  iexists d; isplitr; · ipureintro; exact fun h => absurd rfl h
  iframe

theorem hout3 (c : Dev nD) : (dat3 V c).Φ (Fin.last cfg3.N) ⊢ Pipeline.ΦA spec3 c := by
  rw [PhiA3_eq]; show PhiS3 V c (Fin.last cfg3.N).val (Nat.le_of_lt_succ (Fin.last cfg3.N).isLt) ⊢ _; unfold PhiS3
  iintro ⟨%d, -, ⟨HS, HR⟩, Hg⟩
  iframe HR Hg
  iexists d; iexact HS

end Cert.KernelIdeal.Hand

end
-- ==== Proof.KI.FinalDefs.lean ====
import proofs.«115948_j41927470743646_1_alg».proof.Proof.Gen.KernelIdeal.Launch
import proofs.«115948_j41927470743646_1_alg».proof.Proof.Gen.KernelIdeal.Skeleton
import proofs.«115948_j41927470743646_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rW0 : Rect S1280x256 := Rect.unit (s := S1280x256) ![0, 0] S256x256.size inb_S1280x256_S256x256_0_0
abbrev rW1 : Rect S1280x256 := Rect.unit (s := S1280x256) ![256, 0] S256x256.size inb_S1280x256_S256x256_256_0
abbrev rW2 : Rect S1280x256 := Rect.unit (s := S1280x256) ![512, 0] S256x256.size inb_S1280x256_S256x256_512_0
abbrev rW3 : Rect S1280x256 := Rect.unit (s := S1280x256) ![768, 0] S256x256.size inb_S1280x256_S256x256_768_0
abbrev rW4 : Rect S1280x256 := Rect.unit (s := S1280x256) ![1024, 0] S256x256.size inb_S1280x256_S256x256_1024_0

def out4 (x0 x1 x2 x3 x4 : Vec F S1024x256 .f32) (w : Vec F S1280x256 .f32) (b : Vec F S1x256 .f32) : Vec F S1024x256 .f32 :=
  k4_pay1 (k4_pay2 x0 (View.ld w rW0) x1 (View.ld w rW1) x2 (View.ld w rW2) x3 (View.ld w rW3) x4 (View.ld w rW4)) b

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) :
    (dat4 V c).after 7 t = out4 (iblk4 V c 0 t) (iblk4 V c 1 t) (iblk4 V c 2 t) (iblk4 V c 3 t) (iblk4 V c 4 t) (iblk4 V c 5 t) (iblk4 V c 6 t) := by
  dsimp only [dat4]

end Cert.KernelIdeal.Hand

end
-- ==== Proof.KI.Fold.lean ====
import proofs.«115948_j41927470743646_1_alg».proof.Proof.KI.Cheb0
import proofs.«115948_j41927470743646_1_alg».proof.Proof.KI.Cheb1
import proofs.«115948_j41927470743646_1_alg».proof.Proof.KI.Cheb2
import proofs.«115948_j41927470743646_1_alg».proof.Proof.KI.Cheb3
import proofs.«115948_j41927470743646_1_alg».proof.Proof.KI.FinalDefs
import proofs.«115948_j41927470743646_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 (c : Dev nD) : Valuation τ sig (Elt F) := fun b => m (c, b)
abbrev U0 (c : Dev nD) (b : Ref sig .tc) : Buf (Elt F) ((c : Thread nD τ).loc b) := W0 m c b

def o0 (c : Dev nD) : Buf (Elt F) ((c : Thread nD τ).loc main_v0) := (dat0 (U0 m) c).arrAt 3 cfg0.N
abbrev W1 (c : Dev nD) : Valuation τ sig (Elt F) := Function.update (W0 m c) main_v0 (o0 m c)
abbrev U1 (c : Dev nD) (b : Ref sig .tc) : Buf (Elt F) ((c : Thread nD τ).loc b) := W1 m c b

def o1 (c : Dev nD) : Buf (Elt F) ((c : Thread nD τ).loc main_v1) := (dat1 (U1 m) c).arrAt 3 cfg1.N
abbrev W2 (c : Dev nD) : Valuation τ sig (Elt F) := Function.update (W1 m c) main_v1 (o1 m c)
abbrev U2 (c : Dev nD) (b : Ref sig .tc) : Buf (Elt F) ((c : Thread nD τ).loc b) := W2 m c b

def o2 (c : Dev nD) : Buf (Elt F) ((c : Thread nD τ).loc main_v2) := (dat2 (U2 m) c).arrAt 3 cfg2.N
abbrev W3 (c : Dev nD) : Valuation τ sig (Elt F) := Function.update (W2 m c) main_v2 (o2 m c)
abbrev U3 (c : Dev nD) (b : Ref sig .tc) : Buf (Elt F) ((c : Thread nD τ).loc b) := W3 m c b

def o3 (c : Dev nD) : Buf (Elt F) ((c : Thread nD τ).loc main_v3) := (dat3 (U3 m) c).arrAt 3 cfg3.N
abbrev W4 (c : Dev nD) : Valuation τ sig (Elt F) := Function.update (W3 m c) main_v3 (o3 m c)

abbrev W5 (c : Dev nD) : Valuation τ sig (Elt F) := StableHlo.after hostOps4 (W4 m c)
abbrev U5 (c : Dev nD) (b : Ref sig .tc) : Buf (Elt F) ((c : Thread nD τ).loc b) := W5 m c b

def o4 (c : Dev nD) : Buf (Elt F) ((c : Thread nD τ).loc main_v5) := (dat4 (U5 m) c).arrAt 7 cfg4.N
abbrev W6 (c : Dev nD) : Valuation τ sig (Elt F) := Function.update (W5 m c) main_v5 (o4 m c)

theorem W1_of (c : Dev nD) (r : Ref sig .tc) (h : r ≠ main_v0) : W1 m c r = W0 m c r := by
  simp only [W1, Function.update_of_ne (StableHlo.devRef_ne_of_ne h : (Proc.devRef .tc r : DevRef τ sig) ≠ Proc.devRef .tc main_v0)]
theorem W2_of (c : Dev nD) (r : Ref sig .tc) (h : r ≠ main_v1) : W2 m c r = W1 m c r := by
  simp only [W2, Function.update_of_ne (StableHlo.devRef_ne_of_ne h : (Proc.devRef .tc r : DevRef τ sig) ≠ Proc.devRef .tc main_v1)]
theorem W3_of (c : Dev nD) (r : Ref sig .tc) (h : r ≠ main_v2) : W3 m c r = W2 m c r := by
  simp only [W3, Function.update_of_ne (StableHlo.devRef_ne_of_ne h : (Proc.devRef .tc r : DevRef τ sig) ≠ Proc.devRef .tc main_v2)]
theorem W4_of (c : Dev nD) (r : Ref sig .tc) (h : r ≠ main_v3) : W4 m c r = W3 m c r := by
  simp only [W4, Function.update_of_ne (StableHlo.devRef_ne_of_ne h : (Proc.devRef .tc r : DevRef τ sig) ≠ Proc.devRef .tc main_v3)]
theorem W5_of (c : Dev nD) (r : Ref sig .tc) (h : r ∉ hostOps4_W) : W5 m c r = W4 m c r :=
  StableHlo.after_of_writes_sub hostOps4 _ hostOps4_writes h
theorem W6_of (c : Dev nD) (r : Ref sig .tc) (h : r ≠ main_v5) : W6 m c r = W5 m c r := by
  simp only [W6, Function.update_of_ne (StableHlo.devRef_ne_of_ne h : (Proc.devRef .tc r : DevRef τ sig) ≠ Proc.devRef .tc main_v5)]
theorem W1_out (c : Dev nD) : W1 m c main_v0 = o0 m c := by simp only [W1, Function.update_self]
theorem W2_out (c : Dev nD) : W2 m c main_v1 = o1 m c := by simp only [W2, Function.update_self]
theorem W3_out (c : Dev nD) : W3 m c main_v2 = o2 m c := by simp only [W3, Function.update_self]
theorem W4_out (c : Dev nD) : W4 m c main_v3 = o3 m c := by simp only [W4, Function.update_self]
theorem W6_out (c : Dev nD) : W6 m c main_v5 = o4 m c := by simp only [W6, Function.update_self]

theorem W6_arg (c : Dev nD) (r : Ref sig .tc) (h0 : r ≠ main_v0) (h1 : r ≠ main_v1) (h2 : r ≠ main_v2) (h3 : r ≠ main_v3)
    (h4 : r ∉ hostOps4_W) (h5 : r ≠ main_v5) : W6 m c r = m ((c : Thread nD τ).loc r) :=
  (W6_of m c r h5).trans <| (W5_of m c r h4).trans <| (W4_of m c r h3).trans <| (W3_of m c r h2).trans <| (W2_of m c r h1).trans <| (W1_of m c r h0).trans rfl

end Cert.KernelIdeal.Hand

end
-- ==== Proof.KI.Final.lean ====
import proofs.«115948_j41927470743646_1_alg».proof.Proof.KI.FinalDefs
import proofs.«115948_j41927470743646_1_alg».proof.Proof.Gen.KernelIdeal.Launch
import proofs.«115948_j41927470743646_1_alg».proof.Proof.Gen.KernelIdeal.Skeleton
import proofs.«115948_j41927470743646_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => rfl) t d).trans rfl
theorem before4_4 (c : Dev nD) (t : Fin cfg4.N) (d) : (dat4 V c).before 4 t d = iblk4 V c 4 t :=
  ((dat4 V c).before_in_eq_fetched 4 rfl (fun _ => rfl) (fun _ _ _ => rfl) (fun _ => rfl) t d).trans rfl
theorem before4_5 (c : Dev nD) (t : Fin cfg4.N) (d) : (dat4 V c).before 5 t d = iblk4 V c 5 t :=
  ((dat4 V c).before_in_eq_fetched 5 rfl (fun _ => rfl) (fun _ _ _ => rfl) (fun _ => rfl) t d).trans rfl
theorem before4_6 (c : Dev nD) (t : Fin cfg4.N) (d) : (dat4 V c).before 6 t d = iblk4 V c 6 t :=
  ((dat4 V c).before_in_eq_fetched 6 rfl (fun _ => rfl) (fun _ _ _ => rfl) (fun _ => rfl) t d).trans rfl

set_option maxHeartbeats 4000000 in

theorem sound_kernel4 (c : Dev nD) (E : Set ℕ) (i : grid4.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1280x256 .f32) (harg6 : arg6.IsWhole) (arg7 : Memref sig .tc .vmem S1x256 .f32) (harg7 : arg7.IsWhole) (arg8 : Memref sig .tc .vmem S1024x256 .f32) (harg8 : arg8.IsWhole)
    (x0 x1 x2 x3 x4 : Vec F S1024x256 .f32) (w : Vec F S1280x256 .f32) (b : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare w ∗ owns (c : Thread nD τ) arg7 fullShare b ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare w ∗ owns (c : Thread nD τ) arg7 fullShare b ∗ owns (c : Thread nD τ) arg8 fullShare (out4 x0 x1 x2 x3 x4 w b)) -∗ K ⟨⟩))
      ⊢ wp frame (wpE (defs₀ (F := F)) Variants.none c none) E (cc4__final_kernel i arg1 harg1 arg2 harg2 arg3 harg3 arg4 harg4 arg5 harg5 arg6 harg6 arg7 harg7 arg8 harg8) K := by
  simp only [cc4__final_kernel_eq_skeleton]; unfold cc4__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dO, %fo, -, HO⟩, Hk⟩
  subst hf0; subst hf1; subst hf2; subst hf3; subst hf4; subst hf5; subst hf6
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists _; isplitr
  swap; · iexact HO
  ipureintro
  have hz : (![0, 0] : Fin 2 → ℕ) = fun _ => 0 := by funext a; fin_cases a <;> rfl
  sl_unfold_words
  rw [View.read_writes_eq_canon _ _ _ (fun y => ⟨_, List.mem_cons_self, View.mem_set_unit_zero hz inb_S1024x256_S1024x256_0_0 y⟩)]
  rw [View.canon_cons_unit_zero (S := S1024x256) hz]
  unfold out4
  simp only [View.readAt_eq_ld, View.ld_unit_zero (S := S1024x256) hz, View.ld_unit_zero (S := S1x256) hz]

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Shared0.lean ====
import proofs.«115948_j41927470743646_1_alg».proof.Proof.KI.Cheb0

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem arrImage0 : Finset.univ.image (Pipeline.arrRef spec0) = {main_arg0, main_arg1, main_v0} := by decide

theorem arrBufs0_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0)) := by
  unfold Pipeline.arrBufs
  rw [arrImage0, bigSep_insert (by decide), bigSep_insert (by decide), bigSep_singleton]
  rfl

theorem arrays0_chain (V : (c : Dev nD) → (b : Ref sig .tc) → Buf (Elt F) ((c : Thread nD τ).loc b)) (c : Dev nD)
    (G : (w : Fin cfg0.W) → Buf (Elt F) ((cfg0.win w).arr.view.loc (c : Thread nD τ))) :
    ((dat0 V c).arrays G : sProp 𝕄)
      = iprop((((c : Thread nD τ).loc main_arg0) ↦{fullShare} G 0) ∗ (((c : Thread nD τ).loc main_arg1) ↦{fullShare.left} G 1)
          ∗ (((c : Thread nD τ).loc main_arg1) ↦{fullShare.right} G 2) ∗ (((c : Thread nD τ).loc main_v0) ↦{fullShare} G 3)) := by
  unfold Dat.arrays
  rw [bigSep_W0]

  rw [(arr_whole0 0).set_eq_univ, (arr_whole0 1).set_eq_univ, (arr_whole0 3).set_eq_univ]
  rfl

theorem arrays0_of_unscopedBufs (V : (c : Dev nD) → (b : Ref sig .tc) → Buf (Elt F) ((c : Thread nD τ).loc b)) (c : Dev nD) :
    (unscopedBufs (Ix := Unit) (Name := ℕ) (U := UR sig nD τ) (Lvl := ℕ) c (V c) : sProp 𝕄)
      ⊢ iprop((dat0 V c).arrays ((dat0 V c).arrAt · 0)
          ∗ Pipeline.unscopedRest (Ix := Unit) (Name := ℕ) (U := UR sig nD τ) (Lvl := ℕ) spec0 c (V c)) := by

  rw [Pipeline.unscopedBufs_split₀ cfgs (0 : Fin 5) winFacts₀0.arr_unscoped c (V c)]
  refine sep_mono ?_ .rfl
  rw [show (Pipeline.arrBufs (Ix := Unit) (Name := ℕ) (U := UR sig nD τ) (Lvl := ℕ) (cfgs (0 : Fin 5)).spec c (V c) : sProp 𝕄)
      = Pipeline.arrBufs spec0 c (V c) from rfl, arrBufs0_chain, arrays0_chain]

  iintro ⟨Ha0, Ha1, Hv0⟩
  ihave Ha1 := (pointsTo_share (PosShare.mem_left_op_right fullShare)).1 $$ Ha1
  icases Ha1 with ⟨Hl, Hr⟩
  isplitl [Ha0]; · iexact Ha0
  isplitl [Hl]; · iexact Hl
  isplitl [Hr]; · iexact Hr
  iexact Hv0

theorem unscopedBufs_of_arrays0 (V V' : (c : Dev nD) → (b : Ref sig .tc) → Buf (Elt F) ((c : Thread nD τ).loc b)) (c : Dev nD)
    (hF : ∀ w, (dat0 V c).arrAt w cfg0.N = V' c (Pipeline.arrRef spec0 w))
    (hrest : ∀ b, b ∉ Finset.univ.image (Pipeline.arrRef spec0) → V' c b = V c b) :
    iprop((dat0 V c).arrays ((dat0 V c).arrAt · cfg0.N)
        ∗ Pipeline.unscopedRest (Ix := Unit) (Name := ℕ) (U := UR sig nD τ) (Lvl := ℕ) spec0 c (V c))
      ⊢ (unscopedBufs (Ix := Unit) (Name := ℕ) (U := UR sig nD τ) (Lvl := ℕ) c (V' c) : sProp 𝕄) := by
  rw [Pipeline.unscopedBufs_split₀ cfgs (0 : Fin 5) winFacts₀0.arr_unscoped c (V' c)]
  refine sep_mono ?_ (Entails.of_eq ?_)
  · rw [show (Pipeline.arrBufs (Ix := Unit) (Name := ℕ) (U := UR sig nD τ) (Lvl := ℕ) (cfgs (0 : Fin 5)).spec c (V' c) : sProp 𝕄)
        = Pipeline.arrBufs spec0 c (V' c) from rfl, arrBufs0_chain, arrays0_chain]

    rw [hF 0, hF 1, hF 2, hF 3]
    iintro ⟨Ha0, Hl, Hr, Hv0⟩
    ihave Ha1 := (pointsTo_share (PosShare.mem_left_op_right fullShare)).2 $$ [Hl Hr]
    · isplitl [Hl]; · iexact Hl
      iexact Hr
    isplitl [Ha0]; · iexact Ha0
    isplitl [Ha1]; · iexact Ha1
    iexact Hv0
  ·
    show Pipeline.unscopedRest spec0 c (V c) = Pipeline.unscopedRest spec0 c (V' c)
    unfold Pipeline.unscopedRest
    exact bigSep_congr fun b hb => by rw [hrest b (Finset.mem_sdiff.mp hb).2]

end Cert.KernelIdeal.Hand

end
-- ==== Proof.KI.Run.lean ====
import proofs.«115948_j41927470743646_1_alg».proof.Proof.KI.Fold
import proofs.«115948_j41927470743646_1_alg».proof.Proof.KI.Final
import proofs.«115948_j41927470743646_1_alg».proof.Proof.KI.Shared0

set_option backward.isDefEq.respectTransparency.types false

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 5) → (c : Dev nD) → Dat τ (Elt F) Unit ℕ (UR sig nD τ) ℕ (Pipeline.pin (pcfgs (F := F)) adm p) c
  | ⟨0, _⟩ => fun c => dat0 (U0 m) c
  | ⟨1, _⟩ => fun c => dat1 (U1 m) c
  | ⟨2, _⟩ => fun c => dat2 (U2 m) c
  | ⟨3, _⟩ => fun c => dat3 (U3 m) c
  | ⟨4, _⟩ => fun c => dat4 (U5 m) c
abbrev 𝒱z : Variants := Variants.none
abbrev Lz : GSem nD τ sig → Finset Unit := fun _ => ∅
abbrev lvz : GSem nD τ sig → Unit → ℕ := fun _ _ => 0
abbrev Rest (c : Dev nD) : sProp 𝕄 := iprop((∃ r, prngReg c r) ∗ ∃ W, owes (c : Thread nD τ) (0 : CellTallies nD τ sig Unit) W)

abbrev hseg4 : Pipeline.HostSeg (Name := ℕ) (U := UR sig nD τ) (pcfgs (F := F)) defs₀ 𝒱z Lz lvz :=
  Pipeline.HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (W4 m) Rest

abbrev Reg := Pipeline.RegionSeg (pcfgs (F := F)) adm (pdats m) () defs₀ 𝒱z Lz lvz

theorem pd_std (p : Fin 5) (c : Dev nD) : (∀ t, (pdats m p c).owed t = 0) ∧ ∀ x, x ∈ (pdats m p c).recorded 0 := by
  fin_cases p <;> exact ⟨fun _ => rfl, fun _ => trivial⟩

/-- A region from contents `W` to `W'`: the buffers split into its arrays and a rest `Z` at entry, and join again at exit. -/
def mkReg {p : Fin 5} (win : Pipeline.WinFacts₀ (cfgs p).spec) (block_pos : ∀ w : Fin (cfgs p).W, 0 < ((cfgs p).spec w).block.numel)
    (stage_whole : ∀ (w : Fin (cfgs p).W) (s : Fin ((cfgs p).spec w).nbuf), (((cfgs p).spec w).stage s).IsWhole)
    (hbody : ∀ c, BodyObligation (pdats m p c) defs₀ 𝒱z () Set.univ)
    {W W' : Dev nD → Valuation τ sig (Elt F)} {Z : Dev nD → sProp 𝕄}
    (hsplit : ∀ c, (unscopedBufs c (fun b => W c b) : sProp 𝕄) ⊢ iprop((pdats m p c).arrays ((pdats m p c).arrAt · 0) ∗ Z c))
    (hjoin : ∀ c, iprop((pdats m p c).arrays ((pdats m p c).arrAt · (cfgs p).N) ∗ Z c) ⊢ (unscopedBufs c (fun b => W' c b) : sProp 𝕄))
    (hin : ∀ c, Pipeline.ΦA (cfgs p).spec c ⊢ (pdats m p c).Φ 0)
    (hout : ∀ c, (pdats m p c).Φ (Fin.last _) ⊢ Pipeline.ΦA (cfgs p).spec c) :
    Reg m p where
  win := win
  block_pos := block_pos
  stage_whole := stage_whole
  K := PEmpty
  osem k := k.elim
  ho := Pipeline.OwnSemFacts.none _
  hbody c := (hbody c).loose
  hwaits := Pipeline.hwaits_of_owed_zero _ _ _ _ Lz lvz p fun c => (pd_std m p c).1
  pre c := iprop(StableHlo.held (c : Thread nD τ) (Pipeline.ucRefs τ sig) (W c) ∗ Rest c)
  post c := iprop(StableHlo.held (c : Thread nD τ) (Pipeline.ucRefs τ sig) (W' c) ∗ Rest c)
  X c := iprop(∃ r, prngReg c r)
  Y c := iprop(∃ r, prngReg c r)
  Z := Z
  hentry c := by
    have hs := hsplit c
    rw [Pipeline.unscopedBufs_held] at hs
    unfold Pipeline.Dat.owesAt Pipeline.owesWithin Pipeline.prefHeld
    rw [(pd_std m p c).1]
    iintro ⟨⟨Hub, Hp, %O, HO⟩, -, -⟩
    icases hs $$ Hub with ⟨Ha, Hz⟩
    imodintro
    iframe Ha Hp Hz
    isplitr
    · rw [Finset.univ_eq_empty, BI.bigSep_empty]; iempintro
    iexists O; iframe HO; ipureintro; exact fun x _ => Or.inl ((pd_std m p c).2 x)
  hin c := (show _ ⊢ Pipeline.ΦA (cfgs p).spec c by unfold Pipeline.ΦA; iintro ⟨Hp, -, Hr⟩; iframe).trans (hin c)
  hout c := (hout c).trans (by rw [Pipeline.ownSems0_none]; unfold Pipeline.ΦA; iintro ⟨Hr, Hp⟩; iframe; iempintro)
  hexit c := by
    have hj := hjoin c
    rw [Pipeline.unscopedBufs_held] at hj
    unfold Pipeline.Dat.owesAt Pipeline.owesWithin Rest
    rw [(pd_std m p c).1]
    iintro ⟨Ha, ⟨%O, -, HO⟩, HY, Hz⟩
    imodintro
    iframe HY
    isplitl [Ha Hz]
    · iapply hj; iframe
    iexists O; iexact HO

/-- Window `o` is the one output, and its array is no input's. -/
abbrev OneOut {p : Fin 5} (o : Fin (cfgs p).W) : Prop :=
  ∀ w, w ≠ o → ((cfgs p).win w).isOut = false ∧ Pipeline.arrRef (cfgs p).spec w ≠ Pipeline.arrRef (cfgs p).spec o

/-- `V'` is `V` except at the output window's array, where it is that array's final contents. -/
theorem after_out {p : Fin 5} (c : Dev nD) {V V' : (b : Ref sig .tc) → Buf (Elt F) ((c : Thread nD τ).loc b)} (o : Fin (cfgs p).W) (hio : OneOut o)
    (hA : ∀ w, (pdats m p c).A w = V (Pipeline.arrRef (cfgs p).spec w))
    (hof : ∀ r, r ≠ Pipeline.arrRef (cfgs p).spec o → V' r = V r)
    (ho : V' (Pipeline.arrRef (cfgs p).spec o) = (pdats m p c).arrAt o (cfgs p).N) :
    (∀ w, (pdats m p c).arrAt w (cfgs p).N = V' (Pipeline.arrRef (cfgs p).spec w))
      ∧ ∀ b, b ∉ Finset.univ.image (Pipeline.arrRef (cfgs p).spec) → V' b = V b :=
  ⟨fun w => if h : w = o then h ▸ ho.symm else
      ((pdats m p c).arrAt_in w (hio w h).1 _).trans ((hA w).trans (hof _ (hio w h).2).symm),
    fun b hb => hof b fun e => hb (e ▸ Finset.mem_image_of_mem _ (Finset.mem_univ o))⟩

/-- A region whose windows' arrays are distinct buffers, each split out and put back whole. -/
def regL {p : Fin 5} (L : Pipeline.LaunchFacts (nD := nD) (τ := τ) cfgs p) (o : Fin (cfgs p).W) (hio : OneOut o)
    (hbody : ∀ c, BodyObligation (pdats m p c) defs₀ 𝒱z () Set.univ)
    (hq : ∀ c w, (pdats m p c).q w = fullShare) {W W' : Dev nD → Valuation τ sig (Elt F)}
    (hA : ∀ c w, (pdats m p c).A w = W c (Pipeline.arrRef (cfgs p).spec w))
    (hof : ∀ c (r : Ref sig .tc), r ≠ Pipeline.arrRef (cfgs p).spec o → W' c r = W c r)
    (ho : ∀ c, W' c (Pipeline.arrRef (cfgs p).spec o) = (pdats m p c).arrAt o (cfgs p).N)
    (hin : ∀ c, Pipeline.ΦA (cfgs p).spec c ⊢ (pdats m p c).Φ 0)
    (hout : ∀ c, (pdats m p c).Φ (Fin.last _) ⊢ Pipeline.ΦA (cfgs p).spec c) :
    Reg m p :=
  mkReg m L.win.to₀ L.block_pos L.stage_whole hbody (W := W) (W' := W')
    (fun c => Pipeline.arrays_of_unscopedBufs (pcfgs (F := F)) adm (pdats m) L.win L.arr_whole c
      ((pdats m p c).share_full (hq c)) _ (hA c))
    (fun c => have h := after_out m c o hio (hA c) (hof c) (ho c)
      Pipeline.unscopedBufs_of_arrays (pcfgs (F := F)) adm L.win L.arr_whole c (pdats m)
        ((pdats m p c).share_full (hq c)) _ _ _ h.1 h.2)
    hin hout

def reg0 : Reg m 0 :=
  mkReg m winFacts₀0 block_pos0 stage_whole0 (body_obligation0 (U0 m)) (W := W0 m) (W' := W1 m) (arrays0_of_unscopedBufs (U0 m))
    (fun c => have h := after_out m (p := 0) c 3 (by decide) (A_eq0 (U0 m) c) (W1_of m c) (W1_out m c)
      unscopedBufs_of_arrays0 (U0 m) (U1 m) c h.1 h.2)
    (hin0 (U0 m)) (hout0 (U0 m))
def reg1 : Reg m 1 :=
  regL m launch1 3 (by decide) (body_obligation1 (U1 m)) (fun _ _ => rfl) (A_eq1 (U1 m)) (W2_of m) (W2_out m) (hin1 (U1 m)) (hout1 (U1 m))
def reg2 : Reg m 2 :=
  regL m launch2 3 (by decide) (body_obligation2 (U2 m)) (fun _ _ => rfl) (A_eq2 (U2 m)) (W3_of m) (W3_out m) (hin2 (U2 m)) (hout2 (U2 m))
def reg3 : Reg m 3 :=
  regL m launch3 3 (by decide) (body_obligation3 (U3 m)) (fun _ _ => rfl) (A_eq3 (U3 m)) (W4_of m) (W4_out m) (hin3 (U3 m)) (hout3 (U3 m))
def reg4 : Reg m 4 :=
  regL m launch4 7 (by decide) (body_obligation4 (U5 m)) (fun _ _ => rfl) (A_eq4 (U5 m)) (W6_of m) (W6_out m) (fun _ => .rfl) (fun _ => .rfl)

abbrev segs : List (Pipeline.Seg (pcfgs (F := F)) adm (pdats m) () defs₀ 𝒱z Lz lvz) :=
  [ .region (reg0 m), .region (reg1 m), .region (reg2 m), .region (reg3 m), .host (hseg4 m), .region (reg4 m) ]
theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The items run in order; every final memory holds the last contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱z Lz lvz m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by rw [BI.bigSep_emp_const]; exact (sep_emp (PROP := sProp 𝕄)).2.trans fupd_intro)
    (T₀ := fun c => iprop(StableHlo.held (c : Thread nD τ) (Pipeline.ucRefs τ sig) (W0 m c) ∗ Rest c))
    (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, fun _ => sep_assoc.2⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      iframe Hh
      isplitl [Hp] <;> iexists _ <;> iassumption)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      iframe)
    (hQ := fun s h c => h c)

theorem run_value : θ_run defs (onTc (τ := τ) (main (F := F))) ⟨m, fun _ => 0, ρ⟩ (fun r => ∀ c : Dev nD,
      r.2.mem ((c.tc : Thread nD τ).loc main_v5) = o4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => by
    refine ⟨(h c _ (mem_uc main_v5 (by decide))).trans (W6_out m c), ?_, ?_, ?_, ?_⟩ <;>
      exact (h c _ (mem_uc _ (by decide))).trans (W6_arg m c _ (by decide) (by decide) (by decide) (by decide) (by decide) (by decide)))
    (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_value m ρ)

end Cert.KernelIdeal.Hand

end
-- ==== Proof.Spec.lean ====
import Idealize.ShloMosaic.Lib.ValueIdx
import Idealize.ShloMosaic.PureOps.Ideal
import Idealize.ShloMosaic.PureOps.Ideal.Laws

noncomputable section

namespace Cert.Cheb

open Idealize.ShloMosaic Idealize.ShloMosaic.ValueIdx
open scoped BigOperators

abbrev SNN : Shape := ⟨2, ![8192, 8192]⟩
abbrev SND : Shape := ⟨2, ![8192, 256]⟩
abbrev SWD : Shape := ⟨2, ![1280, 256]⟩
abbrev S1B : Shape := ⟨2, ![1, 256]⟩
abbrev SB : Shape := ⟨1, ![256]⟩

def lap (L : SNN.Idx → EReal) (T : SND.Idx → EReal) : SND.Idx → EReal :=
  fun i => ∑ k : Fin 8192, L (ix2 (i 0) k) * T (ix2 k (i 1))

/-- One step of the recurrence, entry by entry: α · (L T) + β · T'. -/
def step (α β : EReal) (L : SNN.Idx → EReal) (T T' : SND.Idx → EReal) : SND.Idx → EReal :=
  fun i => α * lap L T i + β * T' i

abbrev w1 : EReal := Ideal.ofBits .f32 0x3F800000#32
abbrev w0 : EReal := Ideal.ofBits .f32 0x00000000#32
abbrev w2 : EReal := Ideal.ofBits .f32 0x40000000#32
abbrev wm1 : EReal := Ideal.ofBits .f32 0xBF800000#32

def f1 (L : SNN.Idx → EReal) (x : SND.Idx → EReal) : SND.Idx → EReal := step w1 w0 L x x
def f2 (L : SNN.Idx → EReal) (x : SND.Idx → EReal) : SND.Idx → EReal := step w2 wm1 L (f1 L x) x
def f3 (L : SNN.Idx → EReal) (x : SND.Idx → EReal) : SND.Idx → EReal := step w2 wm1 L (f2 L x) (f1 L x)
def f4 (L : SNN.Idx → EReal) (x : SND.Idx → EReal) : SND.Idx → EReal := step w2 wm1 L (f3 L x) (f2 L x)

def slab (j : Fin 5) (T : SND.Idx → EReal) (W : SWD.Idx → EReal) : SND.Idx → EReal :=
  fun i => ∑ k : Fin 256, T (ix2 (i 0) k) * W (ix2 (⟨256 * j.val + k.val, by have := j.isLt; have := k.isLt; omega⟩ : Fin 1280) (i 1))

def dense (T0 T1 T2 T3 T4 : SND.Idx → EReal) (W : SWD.Idx → EReal) (b : S1B.Idx → EReal) : SND.Idx → EReal :=
  fun i => max (slab 0 T0 W i + slab 1 T1 W i + slab 2 T2 W i + slab 3 T3 W i + slab 4 T4 W i + b (ix2 0 (i 1))) w0

def biasRow (b : SB.Idx → EReal) : S1B.Idx → EReal := fun i => b (ix1 (i 1))

/-- The whole layer: the dense map over x and its four recurrence features. -/
def layer (L : SNN.Idx → EReal) (x : SND.Idx → EReal) (W : SWD.Idx → EReal) (b : S1B.Idx → EReal) : SND.Idx → EReal :=
  dense x (f1 L x) (f2 L x) (f3 L x) (f4 L x) W b

end Cert.Cheb

end
-- ==== Proof.LibPlainProduct.lean ====
import Idealize.ShloMosaic.Lib.ValueIdx
import Idealize.ShloMosaic.PureOps.Ideal.Laws

namespace Cert.PlainProduct

open Idealize.ShloMosaic Idealize.ShloMosaic.ValueIdx

variable {M K N : ℕ}

theorem lhs_row (j : (⟨2, ![M, N]⟩ : Shape).Idx) (q : (DotDims.plain M K N).contr.Idx) :
    ((DotDims.plain M K N).lhsIdx j q 0).val = (j 0).val := rfl

theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

theorem rhs_col (j : (⟨2, ![M, N]⟩ : Shape).Idx) (q : (DotDims.plain M K N).contr.Idx) :
    ((DotDims.plain M K N).rhsIdx j q 1).val = (j 1).val := rfl

theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- A product into a zero accumulator, read at an entry: the plain sum over the contracted coordinate. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

end Cert.PlainProduct
-- ==== Proof.LibSums.lean ====
import Mathlib.Algebra.BigOperators.Fin
import Mathlib.Algebra.BigOperators.Group.Finset.Basic
import Mathlib.Logic.Equiv.Fin.Basic

namespace Cert.Sums

open scoped BigOperators

variable {M : Type*} [AddCommMonoid M]

theorem block_index_lt {T R t r : ℕ} (ht : t < T) (hr : r < R) : R * t + r < T * R := by
  calc R * t + r < R * t + R := by omega
    _ = R * (t + 1) := (Nat.mul_succ R t).symm
    _ ≤ R * T := Nat.mul_le_mul_left _ ht
    _ = T * R := Nat.mul_comm _ _

theorem sum_blocks (T R : ℕ) (f : Fin (T * R) → M) :
    ∑ n, f n = ∑ t : Fin T, ∑ r : Fin R, f ⟨R * t.val + r.val, block_index_lt t.isLt r.isLt⟩ := by
  rw [← (finProdFinEquiv (m := T) (n := R)).sum_comp f, Fintype.sum_prod_type]
  refine Finset.sum_congr rfl fun t _ => Finset.sum_congr rfl fun r _ => ?_
  congr 1
  apply Fin.ext
  simp only [finProdFinEquiv_apply_val]
  omega

/-- The sum over the first n blocks of R consecutive indices. -/
def prefixBlocks (T R : ℕ) (f : Fin (T * R) → M) (n : ℕ) (hn : n ≤ T) : M :=
  ∑ t : Fin n, ∑ r : Fin R, f ⟨R * t.val + r.val, block_index_lt (lt_of_lt_of_le t.isLt hn) r.isLt⟩

theorem prefixBlocks_zero (T R : ℕ) (f : Fin (T * R) → M) : prefixBlocks T R f 0 (Nat.zero_le T) = 0 := by
  simp [prefixBlocks]

theorem prefixBlocks_succ (T R : ℕ) (f : Fin (T * R) → M) (n : ℕ) (hn : n < T) :
    prefixBlocks T R f (n + 1) hn
      = prefixBlocks T R f n (Nat.le_of_lt hn) + ∑ r : Fin R, f ⟨R * n + r.val, block_index_lt hn r.isLt⟩ := by
  unfold prefixBlocks
  rw [Fin.sum_univ_castSucc]
  rfl

theorem prefixBlocks_all (T R : ℕ) (f : Fin (T * R) → M) : prefixBlocks T R f T (Nat.le_refl T) = ∑ n, f n := by
  rw [sum_blocks T R f]; rfl

end Cert.Sums
-- ==== Proof.LibTile.lean ====
import Idealize.ShloMosaic.Lib.ValueIdx

namespace Cert.Tile

open Idealize.ShloMosaic Idealize.ShloMosaic.ValueIdx

/-- An entry of a tile is the array's entry at (tile index × tile size + coordinate inside the tile) on each axis. -/
theorem emb {m n M N : ℕ} (f : (⟨2, ![m, n]⟩ : Shape).Idx → (⟨2, ![M, N]⟩ : Shape).Idx) (i : Fin 2 → ℕ)
    (hf : ∀ j a, (f j a).val = i a * (![m, n] : Fin 2 → ℕ) a + 1 * (j a).val) (a : Fin m) (b : Fin n) {r s : ℕ} {hr : r < M} {hs : s < N}
    (ha : i 0 * m + a.val = r) (hb : i 1 * n + b.val = s) : f (ix2 a b) = ix2 ⟨r, hr⟩ ⟨s, hs⟩ :=
  funext fun x => Fin.ext (match x with
    | ⟨0, _⟩ => (hf _ _).trans (by show i 0 * m + 1 * a.val = r; omega)
    | ⟨1, _⟩ => (hf _ _).trans (by show i 1 * n + 1 * b.val = s; omega))

end Cert.Tile
-- ==== Proof.KI.ChebVal0.lean ====
import proofs.«115948_j41927470743646_1_alg».proof.Proof.KI.Cheb0
import proofs.«115948_j41927470743646_1_alg».proof.Proof.Spec
import proofs.«115948_j41927470743646_1_alg».proof.Proof.LibPlainProduct
import proofs.«115948_j41927470743646_1_alg».proof.Proof.LibSums
import proofs.«115948_j41927470743646_1_alg».proof.Proof.LibTile
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

abbrev arr0_L (c : Dev nD) : Vec Ideal S8192x8192 .f32 := V c main_arg0
abbrev arr0_P (c : Dev nD) : Vec Ideal S8192x256 .f32 := V c main_arg1
abbrev arr0_Q (c : Dev nD) : Vec Ideal S8192x256 .f32 := V c main_arg1

abbrev sum0_G (c : Dev nD) : Vec Ideal S8192x256 .f32 :=
  Cert.Cheb.step Cert.Cheb.w1 Cert.Cheb.w0 (arr0_L V c) (arr0_P V c) (arr0_Q V c)

abbrev sum0_term (c : Dev nD) (r : Fin 8192) (q : Fin 256) (m : Fin 8192) : EReal :=
  arr0_L V c (ix2 r m) * arr0_P V c (ix2 m q)

theorem pay0_reset (p : Fin 1024) (q : Fin 256) : k0_pay1 (F := Ideal) (ix2 p q) = 0 := by
  unfold k0_pay1
  simp only [shapeCast_self, broadcast]
  exact Ideal.ofBits_zero_f32

theorem pay0_dot : dot_S1024x2048_S2048x256_S1024x256_1_0_0_1_n_n = DotDims.plain 1024 2048 256 := rfl

theorem pay0_step (v3 : Vec Ideal S1024x2048 .f32) (v5 : Vec Ideal S2048x256 .f32) (v8 : Vec Ideal S1024x256 .f32)
    (p : Fin 1024) (q : Fin 256) :
    k0_pay2 (F := Ideal) v3 v5 v8 (ix2 p q) = v8 (ix2 p q) + ∑ x : Fin 2048, v3 (ix2 p x) * v5 (ix2 x q) := by
  unfold k0_pay2
  simp only [shapeCast_self]
  show v8 (ix2 p q) + matmul (F := Ideal) dot_S1024x2048_S2048x256_S1024x256_1_0_0_1_n_n none _ _ _ (ix2 p q) = _
  rw [pay0_dot, Cert.PlainProduct.matmul_zero_apply]
  rfl

theorem pay0_store (a b : Vec Ideal S1024x256 .f32) (p : Fin 1024) (q : Fin 256) :
    k0_pay3 (F := Ideal) a b (ix2 p q) = Cert.Cheb.w1 * a (ix2 p q) + Cert.Cheb.w0 * b (ix2 p q) := by
  unfold k0_pay3
  try simp only [shapeCast_self]
  rfl

theorem idx0_lt (t : Fin cfg0.N) : t.val < 32 := lt_of_lt_of_eq t.isLt (show cfg0.N = 32 from N_0)

abbrev idx0_row (t : Fin cfg0.N) (p : Fin 1024) : Fin 8192 := ⟨1024 * (t.val / 4) + p.val, by have := idx0_lt t; omega⟩
abbrev idx0_mid (t : Fin cfg0.N) (x : Fin 2048) : Fin 8192 := ⟨2048 * (t.val % 4) + x.val, by omega⟩

theorem idx0_all : ∀ t : Fin grid0.N,
    (win0_0.index t 0 = t.val / 4 ∧ win0_0.index t 1 = t.val % 4) ∧ (win0_1.index t 0 = t.val % 4 ∧ win0_1.index t 1 = 0)
      ∧ (win0_2.index t 0 = t.val / 4 ∧ win0_2.index t 1 = 0) ∧ win0_3.index t 0 = t.val / 4 ∧ win0_3.index t 1 = 0 := by
  decide +kernel

theorem read0_q (c : Dev nD) (t : Fin cfg0.N) (p : Fin 1024) (q : Fin 256) :
    qblk0 V c t (ix2 p q) = arr0_Q V c (ix2 (idx0_row t p) q) := by
  have h := idx0_all t
  exact congrArg (arr0_Q V c) (Cert.Tile.emb ((cfg0.win 2).blk t).view.emb (win0_2.index t) (fun _ _ => rfl) p q (by omega) (by omega))

theorem tile0_sum (c : Dev nD) (i : Fin 8) (k : ℕ) (hk : k < 4) (t : Fin cfg0.N) (ht : t.val = 4 * i.val + k) (p : Fin 1024) (q : Fin 256) :
    ∑ x : Fin 2048, lblk0 V c t (ix2 p x) * pblk0 V c t (ix2 x q)
      = ∑ r : Fin 2048, sum0_term V c ⟨1024 * i.val + p.val, by omega⟩ q ⟨2048 * k + r.val, Cert.Sums.block_index_lt hk r.isLt⟩ :=
  Finset.sum_congr rfl fun x _ => by
    have h := idx0_all t
    exact congrArg₂ (· * ·)
      (congrArg (arr0_L V c) (Cert.Tile.emb ((cfg0.win 0).blk t).view.emb (win0_0.index t) (fun _ _ => rfl) p x (by omega) (by omega)))
      (congrArg (arr0_P V c) (Cert.Tile.emb ((cfg0.win 1).blk t).view.emb (win0_1.index t) (fun _ _ => rfl) x q (by omega) (by omega)))

theorem facc0 (c : Dev nD) (i : Fin 8) (p : Fin 1024) (q : Fin 256) :
    ∀ (k : ℕ) (hk : k < 4) (n : ℕ) (hn : n < cfg0.N), n = 4 * i.val + k →
      acc0 V c n hn (ix2 p q)
        = Cert.Sums.prefixBlocks 4 2048 (sum0_term V c ⟨1024 * i.val + p.val, by omega⟩ q) (k + 1) hk := by
  intro k
  induction k with
  | zero =>
    intro hk n hn e
    subst e
    have hm : (4 * i.val + 0) % 4 = 0 := by omega
    refine (congrFun (acc0_first V c ⟨4 * i.val + 0, hn⟩ hm) (ix2 p q)).trans ?_
    refine (pay0_step (lblk0 V c ⟨4 * i.val + 0, hn⟩) (pblk0 V c ⟨4 * i.val + 0, hn⟩) (k0_pay1 (F := Ideal)) p q).trans ?_
    rw [pay0_reset, tile0_sum V c i 0 hk ⟨_, hn⟩ rfl p q, Cert.Sums.prefixBlocks_succ 4 2048 _ 0 hk, Cert.Sums.prefixBlocks_zero]
  | succ k ih =>
    intro hk n hn e
    subst e
    have hm : ¬(4 * i.val + (k + 1)) % 4 = 0 := by omega
    refine (congrFun (acc0_next V c ⟨4 * i.val + (k + 1), hn⟩ hm) (ix2 p q)).trans ?_
    refine (pay0_step (lblk0 V c ⟨4 * i.val + (k + 1), hn⟩) (pblk0 V c ⟨4 * i.val + (k + 1), hn⟩) _ p q).trans ?_
    rw [ih (by omega) (4 * i.val + (k + 1) - 1) _ (by omega), tile0_sum V c i (k + 1) hk ⟨_, hn⟩ rfl p q, Cert.Sums.prefixBlocks_succ 4 2048 _ (k + 1) hk]

theorem facc0_last (c : Dev nD) (t : Fin cfg0.N) (h3 : t.val % 4 = 3) (p : Fin 1024) (q : Fin 256) :
    acc0 V c t.val t.isLt (ix2 p q) = ∑ m : Fin 8192, sum0_term V c (idx0_row t p) q m := by
  have hN := idx0_lt t
  have e := facc0 V c ⟨t.val / 4, by omega⟩ p q 3 (by omega) t.val t.isLt (by show t.val = 4 * (t.val / 4) + 3; omega)
  rw [e, Cert.Sums.prefixBlocks_all 4 2048]

theorem flushed0_eq (c : Dev nD) (t : Fin cfg0.N) (hf : (cfg0.win 3).flush t = true) :
    (dat0 (F := Ideal) V c).flushed 3 t = ((cfg0.win 3).blk t).view.read (Elt Ideal) (sum0_G V c) := by
  have h3 : t.val % 4 = 3 := (flush0_3 t).mp hf
  have h := idx0_all t
  show (cfg0.win 3).cut (grid0.coords t) ((dat0 V c).after 3 t) = _
  rw [after0_3]
  funext j
  obtain ⟨p, q, rfl⟩ : ∃ (p : Fin 1024) (q : Fin 256), j = ix2 p q := ⟨j 0, j 1, eq_ix2 j⟩
  have hemb : ((cfg0.win 3).blk t).view.emb (ix2 p q) = ix2 (idx0_row t p) q :=
    Cert.Tile.emb _ (win0_3.index t) (fun _ _ => rfl) p q (by omega) (by omega)
  show out0 V c t (ix2 p q) = sum0_G V c (((cfg0.win 3).blk t).view.emb (ix2 p q))
  rw [hemb]
  unfold out0
  refine (pay0_store (acc0 V c t.val t.isLt) (qblk0 V c t) p q).trans ?_
  rw [facc0_last V c t h3, read0_q]
  rfl

theorem blk0_mem (t : Fin cfg0.N) (i : S8192x256.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole (Pipeline.arrRef spec0 3)).slice (win0_3.rect t)).set ↔ _
  rw [View.set_slice_whole, Rect.mem_set_unit]
  exact Iff.rfl

theorem cover0 (i : S8192x256.Idx) : ∃ t : Fin cfg0.N, (cfg0.win 3).flush t = true ∧ i ∈ ((cfg0.win 3).blk t).view.set := by
  have h0 : (i 0).val < 8192 := (i 0).isLt
  have h1 : (i 1).val < 256 := (i 1).isLt
  obtain ⟨t, ht⟩ : ∃ t : Fin cfg0.N, t.val = 4 * ((i 0).val / 1024) + 3 := ⟨⟨_, lt_of_lt_of_eq (by omega) N_0.symm⟩, rfl⟩
  have h := idx0_all t
  refine ⟨t, (flush0_3 t).mpr (by omega), ?_⟩
  rw [blk0_mem]
  intro a
  match a with
  | ⟨0, _⟩ => show win0_3.index t 0 * 1024 ≤ (i 0).val ∧ (i 0).val < win0_3.index t 0 * 1024 + 1024; omega
  | ⟨1, _⟩ => show win0_3.index t 1 * 256 ≤ (i 1).val ∧ (i 1).val < win0_3.index t 1 * 256 + 256; omega

theorem arr0_eq (c : Dev nD) :
    (dat0 (F := Ideal) V c).arrAt 3 cfg0.N
      = Cert.Cheb.step Cert.Cheb.w1 Cert.Cheb.w0 (V c main_arg0) (V c main_arg1) (V c main_arg1) :=
  (dat0 (F := Ideal) V c).arrAt_eq_of_cover 3 (sum0_G V c) (fun t hf => flushed0_eq V c t hf) cover0

end Cert.KernelIdeal.Hand

end
-- ==== Proof.KI.ChebVal1.lean ====
import proofs.«115948_j41927470743646_1_alg».proof.Proof.KI.Cheb1
import proofs.«115948_j41927470743646_1_alg».proof.Proof.Spec
import proofs.«115948_j41927470743646_1_alg».proof.Proof.LibPlainProduct
import proofs.«115948_j41927470743646_1_alg».proof.Proof.LibSums
import proofs.«115948_j41927470743646_1_alg».proof.Proof.LibTile
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

abbrev arr1_L (c : Dev nD) : Vec Ideal S8192x8192 .f32 := V c main_arg0
abbrev arr1_P (c : Dev nD) : Vec Ideal S8192x256 .f32 := V c main_v0
abbrev arr1_Q (c : Dev nD) : Vec Ideal S8192x256 .f32 := V c main_arg1

abbrev sum1_G (c : Dev nD) : Vec Ideal S8192x256 .f32 :=
  Cert.Cheb.step Cert.Cheb.w2 Cert.Cheb.wm1 (arr1_L V c) (arr1_P V c) (arr1_Q V c)

abbrev sum1_term (c : Dev nD) (r : Fin 8192) (q : Fin 256) (m : Fin 8192) : EReal :=
  arr1_L V c (ix2 r m) * arr1_P V c (ix2 m q)

theorem pay1_reset (p : Fin 1024) (q : Fin 256) : k1_pay1 (F := Ideal) (ix2 p q) = 0 := by
  unfold k1_pay1
  simp only [shapeCast_self, broadcast]
  exact Ideal.ofBits_zero_f32

theorem pay1_dot : dot_S1024x2048_S2048x256_S1024x256_1_0_0_1_n_n = DotDims.plain 1024 2048 256 := rfl

theorem pay1_step (v3 : Vec Ideal S1024x2048 .f32) (v5 : Vec Ideal S2048x256 .f32) (v8 : Vec Ideal S1024x256 .f32)
    (p : Fin 1024) (q : Fin 256) :
    k1_pay2 (F := Ideal) v3 v5 v8 (ix2 p q) = v8 (ix2 p q) + ∑ x : Fin 2048, v3 (ix2 p x) * v5 (ix2 x q) := by
  unfold k1_pay2
  simp only [shapeCast_self]
  show v8 (ix2 p q) + matmul (F := Ideal) dot_S1024x2048_S2048x256_S1024x256_1_0_0_1_n_n none _ _ _ (ix2 p q) = _
  rw [pay1_dot, Cert.PlainProduct.matmul_zero_apply]
  rfl

theorem pay1_store (a b : Vec Ideal S1024x256 .f32) (p : Fin 1024) (q : Fin 256) :
    k1_pay3 (F := Ideal) a b (ix2 p q) = Cert.Cheb.w2 * a (ix2 p q) + Cert.Cheb.wm1 * b (ix2 p q) := by
  unfold k1_pay3
  try simp only [shapeCast_self]
  rfl

theorem idx1_lt (t : Fin cfg1.N) : t.val < 32 := lt_of_lt_of_eq t.isLt (show cfg1.N = 32 from N_1)

abbrev idx1_row (t : Fin cfg1.N) (p : Fin 1024) : Fin 8192 := ⟨1024 * (t.val / 4) + p.val, by have := idx1_lt t; omega⟩
abbrev idx1_mid (t : Fin cfg1.N) (x : Fin 2048) : Fin 8192 := ⟨2048 * (t.val % 4) + x.val, by omega⟩

theorem idx1_all : ∀ t : Fin grid1.N,
    (win1_0.index t 0 = t.val / 4 ∧ win1_0.index t 1 = t.val % 4) ∧ (win1_1.index t 0 = t.val % 4 ∧ win1_1.index t 1 = 0)
      ∧ (win1_2.index t 0 = t.val / 4 ∧ win1_2.index t 1 = 0) ∧ win1_3.index t 0 = t.val / 4 ∧ win1_3.index t 1 = 0 := by
  decide +kernel

theorem read1_q (c : Dev nD) (t : Fin cfg1.N) (p : Fin 1024) (q : Fin 256) :
    qblk1 V c t (ix2 p q) = arr1_Q V c (ix2 (idx1_row t p) q) := by
  have h := idx1_all t
  exact congrArg (arr1_Q V c) (Cert.Tile.emb ((cfg1.win 2).blk t).view.emb (win1_2.index t) (fun _ _ => rfl) p q (by omega) (by omega))

theorem tile1_sum (c : Dev nD) (i : Fin 8) (k : ℕ) (hk : k < 4) (t : Fin cfg1.N) (ht : t.val = 4 * i.val + k) (p : Fin 1024) (q : Fin 256) :
    ∑ x : Fin 2048, lblk1 V c t (ix2 p x) * pblk1 V c t (ix2 x q)
      = ∑ r : Fin 2048, sum1_term V c ⟨1024 * i.val + p.val, by omega⟩ q ⟨2048 * k + r.val, Cert.Sums.block_index_lt hk r.isLt⟩ :=
  Finset.sum_congr rfl fun x _ => by
    have h := idx1_all t
    exact congrArg₂ (· * ·)
      (congrArg (arr1_L V c) (Cert.Tile.emb ((cfg1.win 0).blk t).view.emb (win1_0.index t) (fun _ _ => rfl) p x (by omega) (by omega)))
      (congrArg (arr1_P V c) (Cert.Tile.emb ((cfg1.win 1).blk t).view.emb (win1_1.index t) (fun _ _ => rfl) x q (by omega) (by omega)))

theorem facc1 (c : Dev nD) (i : Fin 8) (p : Fin 1024) (q : Fin 256) :
    ∀ (k : ℕ) (hk : k < 4) (n : ℕ) (hn : n < cfg1.N), n = 4 * i.val + k →
      acc1 V c n hn (ix2 p q)
        = Cert.Sums.prefixBlocks 4 2048 (sum1_term V c ⟨1024 * i.val + p.val, by omega⟩ q) (k + 1) hk := by
  intro k
  induction k with
  | zero =>
    intro hk n hn e
    subst e
    have hm : (4 * i.val + 0) % 4 = 0 := by omega
    refine (congrFun (acc1_first V c ⟨4 * i.val + 0, hn⟩ hm) (ix2 p q)).trans ?_
    refine (pay1_step (lblk1 V c ⟨4 * i.val + 0, hn⟩) (pblk1 V c ⟨4 * i.val + 0, hn⟩) (k1_pay1 (F := Ideal)) p q).trans ?_
    rw [pay1_reset, tile1_sum V c i 0 hk ⟨_, hn⟩ rfl p q, Cert.Sums.prefixBlocks_succ 4 2048 _ 0 hk, Cert.Sums.prefixBlocks_zero]
  | succ k ih =>
    intro hk n hn e
    subst e
    have hm : ¬(4 * i.val + (k + 1)) % 4 = 0 := by omega
    refine (congrFun (acc1_next V c ⟨4 * i.val + (k + 1), hn⟩ hm) (ix2 p q)).trans ?_
    refine (pay1_step (lblk1 V c ⟨4 * i.val + (k + 1), hn⟩) (pblk1 V c ⟨4 * i.val + (k + 1), hn⟩) _ p q).trans ?_
    rw [ih (by omega) (4 * i.val + (k + 1) - 1) _ (by omega), tile1_sum V c i (k + 1) hk ⟨_, hn⟩ rfl p q, Cert.Sums.prefixBlocks_succ 4 2048 _ (k + 1) hk]

theorem facc1_last (c : Dev nD) (t : Fin cfg1.N) (h3 : t.val % 4 = 3) (p : Fin 1024) (q : Fin 256) :
    acc1 V c t.val t.isLt (ix2 p q) = ∑ m : Fin 8192, sum1_term V c (idx1_row t p) q m := by
  have hN := idx1_lt t
  have e := facc1 V c ⟨t.val / 4, by omega⟩ p q 3 (by omega) t.val t.isLt (by show t.val = 4 * (t.val / 4) + 3; omega)
  rw [e, Cert.Sums.prefixBlocks_all 4 2048]

theorem flushed1_eq (c : Dev nD) (t : Fin cfg1.N) (hf : (cfg1.win 3).flush t = true) :
    (dat1 (F := Ideal) V c).flushed 3 t = ((cfg1.win 3).blk t).view.read (Elt Ideal) (sum1_G V c) := by
  have h3 : t.val % 4 = 3 := (flush1_3 t).mp hf
  have h := idx1_all t
  show (cfg1.win 3).cut (grid1.coords t) ((dat1 V c).after 3 t) = _
  rw [after1_3]
  funext j
  obtain ⟨p, q, rfl⟩ : ∃ (p : Fin 1024) (q : Fin 256), j = ix2 p q := ⟨j 0, j 1, eq_ix2 j⟩
  have hemb : ((cfg1.win 3).blk t).view.emb (ix2 p q) = ix2 (idx1_row t p) q :=
    Cert.Tile.emb _ (win1_3.index t) (fun _ _ => rfl) p q (by omega) (by omega)
  show out1 V c t (ix2 p q) = sum1_G V c (((cfg1.win 3).blk t).view.emb (ix2 p q))
  rw [hemb]
  unfold out1
  refine (pay1_store (acc1 V c t.val t.isLt) (qblk1 V c t) p q).trans ?_
  rw [facc1_last V c t h3, read1_q]
  rfl

theorem blk1_mem (t : Fin cfg1.N) (i : S8192x256.Idx) :
    i ∈ ((cfg1.win 3).blk t).view.set ↔ ∀ a : Fin 2, win1_3.index t a * S1024x256.size a ≤ (i a).val ∧ (i a).val < win1_3.index t a * S1024x256.size a + S1024x256.size a := by
  show i ∈ ((View.whole (Pipeline.arrRef spec1 3)).slice (win1_3.rect t)).set ↔ _
  rw [View.set_slice_whole, Rect.mem_set_unit]
  exact Iff.rfl

theorem cover1 (i : S8192x256.Idx) : ∃ t : Fin cfg1.N, (cfg1.win 3).flush t = true ∧ i ∈ ((cfg1.win 3).blk t).view.set := by
  have h0 : (i 0).val < 8192 := (i 0).isLt
  have h1 : (i 1).val < 256 := (i 1).isLt
  obtain ⟨t, ht⟩ : ∃ t : Fin cfg1.N, t.val = 4 * ((i 0).val / 1024) + 3 := ⟨⟨_, lt_of_lt_of_eq (by omega) N_1.symm⟩, rfl⟩
  have h := idx1_all t
  refine ⟨t, (flush1_3 t).mpr (by omega), ?_⟩
  rw [blk1_mem]
  intro a
  match a with
  | ⟨0, _⟩ => show win1_3.index t 0 * 1024 ≤ (i 0).val ∧ (i 0).val < win1_3.index t 0 * 1024 + 1024; omega
  | ⟨1, _⟩ => show win1_3.index t 1 * 256 ≤ (i 1).val ∧ (i 1).val < win1_3.index t 1 * 256 + 256; omega

theorem arr1_eq (c : Dev nD) :
    (dat1 (F := Ideal) V c).arrAt 3 cfg1.N
      = Cert.Cheb.step Cert.Cheb.w2 Cert.Cheb.wm1 (V c main_arg0) (V c main_v0) (V c main_arg1) :=
  (dat1 (F := Ideal) V c).arrAt_eq_of_cover 3 (sum1_G V c) (fun t hf => flushed1_eq V c t hf) cover1

end Cert.KernelIdeal.Hand

end
-- ==== Proof.KI.ChebVal2.lean ====
import proofs.«115948_j41927470743646_1_alg».proof.Proof.KI.Cheb2
import proofs.«115948_j41927470743646_1_alg».proof.Proof.Spec
import proofs.«115948_j41927470743646_1_alg».proof.Proof.LibPlainProduct
import proofs.«115948_j41927470743646_1_alg».proof.Proof.LibSums
import proofs.«115948_j41927470743646_1_alg».proof.Proof.LibTile
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

abbrev arr2_L (c : Dev nD) : Vec Ideal S8192x8192 .f32 := V c main_arg0
abbrev arr2_P (c : Dev nD) : Vec Ideal S8192x256 .f32 := V c main_v1
abbrev arr2_Q (c : Dev nD) : Vec Ideal S8192x256 .f32 := V c main_v0

abbrev sum2_G (c : Dev nD) : Vec Ideal S8192x256 .f32 :=
  Cert.Cheb.step Cert.Cheb.w2 Cert.Cheb.wm1 (arr2_L V c) (arr2_P V c) (arr2_Q V c)

abbrev sum2_term (c : Dev nD) (r : Fin 8192) (q : Fin 256) (m : Fin 8192) : EReal :=
  arr2_L V c (ix2 r m) * arr2_P V c (ix2 m q)

theorem pay2_reset (p : Fin 1024) (q : Fin 256) : k2_pay1 (F := Ideal) (ix2 p q) = 0 := by
  unfold k2_pay1
  simp only [shapeCast_self, broadcast]
  exact Ideal.ofBits_zero_f32

theorem pay2_dot : dot_S1024x2048_S2048x256_S1024x256_1_0_0_1_n_n = DotDims.plain 1024 2048 256 := rfl

theorem pay2_step (v3 : Vec Ideal S1024x2048 .f32) (v5 : Vec Ideal S2048x256 .f32) (v8 : Vec Ideal S1024x256 .f32)
    (p : Fin 1024) (q : Fin 256) :
    k2_pay2 (F := Ideal) v3 v5 v8 (ix2 p q) = v8 (ix2 p q) + ∑ x : Fin 2048, v3 (ix2 p x) * v5 (ix2 x q) := by
  unfold k2_pay2
  simp only [shapeCast_self]
  show v8 (ix2 p q) + matmul (F := Ideal) dot_S1024x2048_S2048x256_S1024x256_1_0_0_1_n_n none _ _ _ (ix2 p q) = _
  rw [pay2_dot, Cert.PlainProduct.matmul_zero_apply]
  rfl

theorem pay2_store (a b : Vec Ideal S1024x256 .f32) (p : Fin 1024) (q : Fin 256) :
    k2_pay3 (F := Ideal) a b (ix2 p q) = Cert.Cheb.w2 * a (ix2 p q) + Cert.Cheb.wm1 * b (ix2 p q) := by
  unfold k2_pay3
  try simp only [shapeCast_self]
  rfl

theorem idx2_lt (t : Fin cfg2.N) : t.val < 32 := lt_of_lt_of_eq t.isLt (show cfg2.N = 32 from N_2)

abbrev idx2_row (t : Fin cfg2.N) (p : Fin 1024) : Fin 8192 := ⟨1024 * (t.val / 4) + p.val, by have := idx2_lt t; omega⟩
abbrev idx2_mid (t : Fin cfg2.N) (x : Fin 2048) : Fin 8192 := ⟨2048 * (t.val % 4) + x.val, by omega⟩

theorem idx2_all : ∀ t : Fin grid2.N,
    (win2_0.index t 0 = t.val / 4 ∧ win2_0.index t 1 = t.val % 4) ∧ (win2_1.index t 0 = t.val % 4 ∧ win2_1.index t 1 = 0)
      ∧ (win2_2.index t 0 = t.val / 4 ∧ win2_2.index t 1 = 0) ∧ win2_3.index t 0 = t.val / 4 ∧ win2_3.index t 1 = 0 := by
  decide +kernel

theorem read2_q (c : Dev nD) (t : Fin cfg2.N) (p : Fin 1024) (q : Fin 256) :
    qblk2 V c t (ix2 p q) = arr2_Q V c (ix2 (idx2_row t p) q) := by
  have h := idx2_all t
  exact congrArg (arr2_Q V c) (Cert.Tile.emb ((cfg2.win 2).blk t).view.emb (win2_2.index t) (fun _ _ => rfl) p q (by omega) (by omega))

theorem tile2_sum (c : Dev nD) (i : Fin 8) (k : ℕ) (hk : k < 4) (t : Fin cfg2.N) (ht : t.val = 4 * i.val + k) (p : Fin 1024) (q : Fin 256) :
    ∑ x : Fin 2048, lblk2 V c t (ix2 p x) * pblk2 V c t (ix2 x q)
      = ∑ r : Fin 2048, sum2_term V c ⟨1024 * i.val + p.val, by omega⟩ q ⟨2048 * k + r.val, Cert.Sums.block_index_lt hk r.isLt⟩ :=
  Finset.sum_congr rfl fun x _ => by
    have h := idx2_all t
    exact congrArg₂ (· * ·)
      (congrArg (arr2_L V c) (Cert.Tile.emb ((cfg2.win 0).blk t).view.emb (win2_0.index t) (fun _ _ => rfl) p x (by omega) (by omega)))
      (congrArg (arr2_P V c) (Cert.Tile.emb ((cfg2.win 1).blk t).view.emb (win2_1.index t) (fun _ _ => rfl) x q (by omega) (by omega)))

theorem facc2 (c : Dev nD) (i : Fin 8) (p : Fin 1024) (q : Fin 256) :
    ∀ (k : ℕ) (hk : k < 4) (n : ℕ) (hn : n < cfg2.N), n = 4 * i.val + k →
      acc2 V c n hn (ix2 p q)
        = Cert.Sums.prefixBlocks 4 2048 (sum2_term V c ⟨1024 * i.val + p.val, by omega⟩ q) (k + 1) hk := by
  intro k
  induction k with
  | zero =>
    intro hk n hn e
    subst e
    have hm : (4 * i.val + 0) % 4 = 0 := by omega
    refine (congrFun (acc2_first V c ⟨4 * i.val + 0, hn⟩ hm) (ix2 p q)).trans ?_
    refine (pay2_step (lblk2 V c ⟨4 * i.val + 0, hn⟩) (pblk2 V c ⟨4 * i.val + 0, hn⟩) (k2_pay1 (F := Ideal)) p q).trans ?_
    rw [pay2_reset, tile2_sum V c i 0 hk ⟨_, hn⟩ rfl p q, Cert.Sums.prefixBlocks_succ 4 2048 _ 0 hk, Cert.Sums.prefixBlocks_zero]
  | succ k ih =>
    intro hk n hn e
    subst e
    have hm : ¬(4 * i.val + (k + 1)) % 4 = 0 := by omega
    refine (congrFun (acc2_next V c ⟨4 * i.val + (k + 1), hn⟩ hm) (ix2 p q)).trans ?_
    refine (pay2_step (lblk2 V c ⟨4 * i.val + (k + 1), hn⟩) (pblk2 V c ⟨4 * i.val + (k + 1), hn⟩) _ p q).trans ?_
    rw [ih (by omega) (4 * i.val + (k + 1) - 1) _ (by omega), tile2_sum V c i (k + 1) hk ⟨_, hn⟩ rfl p q, Cert.Sums.prefixBlocks_succ 4 2048 _ (k + 1) hk]

theorem facc2_last (c : Dev nD) (t : Fin cfg2.N) (h3 : t.val % 4 = 3) (p : Fin 1024) (q : Fin 256) :
    acc2 V c t.val t.isLt (ix2 p q) = ∑ m : Fin 8192, sum2_term V c (idx2_row t p) q m := by
  have hN := idx2_lt t
  have e := facc2 V c ⟨t.val / 4, by omega⟩ p q 3 (by omega) t.val t.isLt (by show t.val = 4 * (t.val / 4) + 3; omega)
  rw [e, Cert.Sums.prefixBlocks_all 4 2048]

theorem flushed2_eq (c : Dev nD) (t : Fin cfg2.N) (hf : (cfg2.win 3).flush t = true) :
    (dat2 (F := Ideal) V c).flushed 3 t = ((cfg2.win 3).blk t).view.read (Elt Ideal) (sum2_G V c) := by
  have h3 : t.val % 4 = 3 := (flush2_3 t).mp hf
  have h := idx2_all t
  show (cfg2.win 3).cut (grid2.coords t) ((dat2 V c).after 3 t) = _
  rw [after2_3]
  funext j
  obtain ⟨p, q, rfl⟩ : ∃ (p : Fin 1024) (q : Fin 256), j = ix2 p q := ⟨j 0, j 1, eq_ix2 j⟩
  have hemb : ((cfg2.win 3).blk t).view.emb (ix2 p q) = ix2 (idx2_row t p) q :=
    Cert.Tile.emb _ (win2_3.index t) (fun _ _ => rfl) p q (by omega) (by omega)
  show out2 V c t (ix2 p q) = sum2_G V c (((cfg2.win 3).blk t).view.emb (ix2 p q))
  rw [hemb]
  unfold out2
  refine (pay2_store (acc2 V c t.val t.isLt) (qblk2 V c t) p q).trans ?_
  rw [facc2_last V c t h3, read2_q]
  rfl

theorem blk2_mem (t : Fin cfg2.N) (i : S8192x256.Idx) :
    i ∈ ((cfg2.win 3).blk t).view.set ↔ ∀ a : Fin 2, win2_3.index t a * S1024x256.size a ≤ (i a).val ∧ (i a).val < win2_3.index t a * S1024x256.size a + S1024x256.size a := by
  show i ∈ ((View.whole (Pipeline.arrRef spec2 3)).slice (win2_3.rect t)).set ↔ _
  rw [View.set_slice_whole, Rect.mem_set_unit]
  exact Iff.rfl

theorem cover2 (i : S8192x256.Idx) : ∃ t : Fin cfg2.N, (cfg2.win 3).flush t = true ∧ i ∈ ((cfg2.win 3).blk t).view.set := by
  have h0 : (i 0).val < 8192 := (i 0).isLt
  have h1 : (i 1).val < 256 := (i 1).isLt
  obtain ⟨t, ht⟩ : ∃ t : Fin cfg2.N, t.val = 4 * ((i 0).val / 1024) + 3 := ⟨⟨_, lt_of_lt_of_eq (by omega) N_2.symm⟩, rfl⟩
  have h := idx2_all t
  refine ⟨t, (flush2_3 t).mpr (by omega), ?_⟩
  rw [blk2_mem]
  intro a
  match a with
  | ⟨0, _⟩ => show win2_3.index t 0 * 1024 ≤ (i 0).val ∧ (i 0).val < win2_3.index t 0 * 1024 + 1024; omega
  | ⟨1, _⟩ => show win2_3.index t 1 * 256 ≤ (i 1).val ∧ (i 1).val < win2_3.index t 1 * 256 + 256; omega

theorem arr2_eq (c : Dev nD) :
    (dat2 (F := Ideal) V c).arrAt 3 cfg2.N
      = Cert.Cheb.step Cert.Cheb.w2 Cert.Cheb.wm1 (V c main_arg0) (V c main_v1) (V c main_v0) :=
  (dat2 (F := Ideal) V c).arrAt_eq_of_cover 3 (sum2_G V c) (fun t hf => flushed2_eq V c t hf) cover2

end Cert.KernelIdeal.Hand

end
-- ==== Proof.KI.ChebVal3.lean ====
import proofs.«115948_j41927470743646_1_alg».proof.Proof.KI.Cheb3
import proofs.«115948_j41927470743646_1_alg».proof.Proof.Spec
import proofs.«115948_j41927470743646_1_alg».proof.Proof.LibPlainProduct
import proofs.«115948_j41927470743646_1_alg».proof.Proof.LibSums
import proofs.«115948_j41927470743646_1_alg».proof.Proof.LibTile
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

abbrev arr3_L (c : Dev nD) : Vec Ideal S8192x8192 .f32 := V c main_arg0
abbrev arr3_P (c : Dev nD) : Vec Ideal S8192x256 .f32 := V c main_v2
abbrev arr3_Q (c : Dev nD) : Vec Ideal S8192x256 .f32 := V c main_v1

abbrev sum3_G (c : Dev nD) : Vec Ideal S8192x256 .f32 :=
  Cert.Cheb.step Cert.Cheb.w2 Cert.Cheb.wm1 (arr3_L V c) (arr3_P V c) (arr3_Q V c)

abbrev sum3_term (c : Dev nD) (r : Fin 8192) (q : Fin 256) (m : Fin 8192) : EReal :=
  arr3_L V c (ix2 r m) * arr3_P V c (ix2 m q)

theorem pay3_reset (p : Fin 1024) (q : Fin 256) : k3_pay1 (F := Ideal) (ix2 p q) = 0 := by
  unfold k3_pay1
  simp only [shapeCast_self, broadcast]
  exact Ideal.ofBits_zero_f32

theorem pay3_dot : dot_S1024x2048_S2048x256_S1024x256_1_0_0_1_n_n = DotDims.plain 1024 2048 256 := rfl

theorem pay3_step (v3 : Vec Ideal S1024x2048 .f32) (v5 : Vec Ideal S2048x256 .f32) (v8 : Vec Ideal S1024x256 .f32)
    (p : Fin 1024) (q : Fin 256) :
    k3_pay2 (F := Ideal) v3 v5 v8 (ix2 p q) = v8 (ix2 p q) + ∑ x : Fin 2048, v3 (ix2 p x) * v5 (ix2 x q) := by
  unfold k3_pay2
  simp only [shapeCast_self]
  show v8 (ix2 p q) + matmul (F := Ideal) dot_S1024x2048_S2048x256_S1024x256_1_0_0_1_n_n none _ _ _ (ix2 p q) = _
  rw [pay3_dot, Cert.PlainProduct.matmul_zero_apply]
  rfl

theorem pay3_store (a b : Vec Ideal S1024x256 .f32) (p : Fin 1024) (q : Fin 256) :
    k3_pay3 (F := Ideal) a b (ix2 p q) = Cert.Cheb.w2 * a (ix2 p q) + Cert.Cheb.wm1 * b (ix2 p q) := by
  unfold k3_pay3
  try simp only [shapeCast_self]
  rfl

theorem idx3_lt (t : Fin cfg3.N) : t.val < 32 := lt_of_lt_of_eq t.isLt (show cfg3.N = 32 from N_3)

abbrev idx3_row (t : Fin cfg3.N) (p : Fin 1024) : Fin 8192 := ⟨1024 * (t.val / 4) + p.val, by have := idx3_lt t; omega⟩
abbrev idx3_mid (t : Fin cfg3.N) (x : Fin 2048) : Fin 8192 := ⟨2048 * (t.val % 4) + x.val, by omega⟩

theorem idx3_all : ∀ t : Fin grid3.N,
    (win3_0.index t 0 = t.val / 4 ∧ win3_0.index t 1 = t.val % 4) ∧ (win3_1.index t 0 = t.val % 4 ∧ win3_1.index t 1 = 0)
      ∧ (win3_2.index t 0 = t.val / 4 ∧ win3_2.index t 1 = 0) ∧ win3_3.index t 0 = t.val / 4 ∧ win3_3.index t 1 = 0 := by
  decide +kernel

theorem read3_q (c : Dev nD) (t : Fin cfg3.N) (p : Fin 1024) (q : Fin 256) :
    qblk3 V c t (ix2 p q) = arr3_Q V c (ix2 (idx3_row t p) q) := by
  have h := idx3_all t
  exact congrArg (arr3_Q V c) (Cert.Tile.emb ((cfg3.win 2).blk t).view.emb (win3_2.index t) (fun _ _ => rfl) p q (by omega) (by omega))

theorem tile3_sum (c : Dev nD) (i : Fin 8) (k : ℕ) (hk : k < 4) (t : Fin cfg3.N) (ht : t.val = 4 * i.val + k) (p : Fin 1024) (q : Fin 256) :
    ∑ x : Fin 2048, lblk3 V c t (ix2 p x) * pblk3 V c t (ix2 x q)
      = ∑ r : Fin 2048, sum3_term V c ⟨1024 * i.val + p.val, by omega⟩ q ⟨2048 * k + r.val, Cert.Sums.block_index_lt hk r.isLt⟩ :=
  Finset.sum_congr rfl fun x _ => by
    have h := idx3_all t
    exact congrArg₂ (· * ·)
      (congrArg (arr3_L V c) (Cert.Tile.emb ((cfg3.win 0).blk t).view.emb (win3_0.index t) (fun _ _ => rfl) p x (by omega) (by omega)))
      (congrArg (arr3_P V c) (Cert.Tile.emb ((cfg3.win 1).blk t).view.emb (win3_1.index t) (fun _ _ => rfl) x q (by omega) (by omega)))

theorem facc3 (c : Dev nD) (i : Fin 8) (p : Fin 1024) (q : Fin 256) :
    ∀ (k : ℕ) (hk : k < 4) (n : ℕ) (hn : n < cfg3.N), n = 4 * i.val + k →
      acc3 V c n hn (ix2 p q)
        = Cert.Sums.prefixBlocks 4 2048 (sum3_term V c ⟨1024 * i.val + p.val, by omega⟩ q) (k + 1) hk := by
  intro k
  induction k with
  | zero =>
    intro hk n hn e
    subst e
    have hm : (4 * i.val + 0) % 4 = 0 := by omega
    refine (congrFun (acc3_first V c ⟨4 * i.val + 0, hn⟩ hm) (ix2 p q)).trans ?_
    refine (pay3_step (lblk3 V c ⟨4 * i.val + 0, hn⟩) (pblk3 V c ⟨4 * i.val + 0, hn⟩) (k3_pay1 (F := Ideal)) p q).trans ?_
    rw [pay3_reset, tile3_sum V c i 0 hk ⟨_, hn⟩ rfl p q, Cert.Sums.prefixBlocks_succ 4 2048 _ 0 hk, Cert.Sums.prefixBlocks_zero]
  | succ k ih =>
    intro hk n hn e
    subst e
    have hm : ¬(4 * i.val + (k + 1)) % 4 = 0 := by omega
    refine (congrFun (acc3_next V c ⟨4 * i.val + (k + 1), hn⟩ hm) (ix2 p q)).trans ?_
    refine (pay3_step (lblk3 V c ⟨4 * i.val + (k + 1), hn⟩) (pblk3 V c ⟨4 * i.val + (k + 1), hn⟩) _ p q).trans ?_
    rw [ih (by omega) (4 * i.val + (k + 1) - 1) _ (by omega), tile3_sum V c i (k + 1) hk ⟨_, hn⟩ rfl p q, Cert.Sums.prefixBlocks_succ 4 2048 _ (k + 1) hk]

theorem facc3_last (c : Dev nD) (t : Fin cfg3.N) (h3 : t.val % 4 = 3) (p : Fin 1024) (q : Fin 256) :
    acc3 V c t.val t.isLt (ix2 p q) = ∑ m : Fin 8192, sum3_term V c (idx3_row t p) q m := by
  have hN := idx3_lt t
  have e := facc3 V c ⟨t.val / 4, by omega⟩ p q 3 (by omega) t.val t.isLt (by show t.val = 4 * (t.val / 4) + 3; omega)
  rw [e, Cert.Sums.prefixBlocks_all 4 2048]

theorem flushed3_eq (c : Dev nD) (t : Fin cfg3.N) (hf : (cfg3.win 3).flush t = true) :
    (dat3 (F := Ideal) V c).flushed 3 t = ((cfg3.win 3).blk t).view.read (Elt Ideal) (sum3_G V c) := by
  have h3 : t.val % 4 = 3 := (flush3_3 t).mp hf
  have h := idx3_all t
  show (cfg3.win 3).cut (grid3.coords t) ((dat3 V c).after 3 t) = _
  rw [after3_3]
  funext j
  obtain ⟨p, q, rfl⟩ : ∃ (p : Fin 1024) (q : Fin 256), j = ix2 p q := ⟨j 0, j 1, eq_ix2 j⟩
  have hemb : ((cfg3.win 3).blk t).view.emb (ix2 p q) = ix2 (idx3_row t p) q :=
    Cert.Tile.emb _ (win3_3.index t) (fun _ _ => rfl) p q (by omega) (by omega)
  show out3 V c t (ix2 p q) = sum3_G V c (((cfg3.win 3).blk t).view.emb (ix2 p q))
  rw [hemb]
  unfold out3
  refine (pay3_store (acc3 V c t.val t.isLt) (qblk3 V c t) p q).trans ?_
  rw [facc3_last V c t h3, read3_q]
  rfl

theorem blk3_mem (t : Fin cfg3.N) (i : S8192x256.Idx) :
    i ∈ ((cfg3.win 3).blk t).view.set ↔ ∀ a : Fin 2, win3_3.index t a * S1024x256.size a ≤ (i a).val ∧ (i a).val < win3_3.index t a * S1024x256.size a + S1024x256.size a := by
  show i ∈ ((View.whole (Pipeline.arrRef spec3 3)).slice (win3_3.rect t)).set ↔ _
  rw [View.set_slice_whole, Rect.mem_set_unit]
  exact Iff.rfl

theorem cover3 (i : S8192x256.Idx) : ∃ t : Fin cfg3.N, (cfg3.win 3).flush t = true ∧ i ∈ ((cfg3.win 3).blk t).view.set := by
  have h0 : (i 0).val < 8192 := (i 0).isLt
  have h1 : (i 1).val < 256 := (i 1).isLt
  obtain ⟨t, ht⟩ : ∃ t : Fin cfg3.N, t.val = 4 * ((i 0).val / 1024) + 3 := ⟨⟨_, lt_of_lt_of_eq (by omega) N_3.symm⟩, rfl⟩
  have h := idx3_all t
  refine ⟨t, (flush3_3 t).mpr (by omega), ?_⟩
  rw [blk3_mem]
  intro a
  match a with
  | ⟨0, _⟩ => show win3_3.index t 0 * 1024 ≤ (i 0).val ∧ (i 0).val < win3_3.index t 0 * 1024 + 1024; omega
  | ⟨1, _⟩ => show win3_3.index t 1 * 256 ≤ (i 1).val ∧ (i 1).val < win3_3.index t 1 * 256 + 256; omega

theorem arr3_eq (c : Dev nD) :
    (dat3 (F := Ideal) V c).arrAt 3 cfg3.N
      = Cert.Cheb.step Cert.Cheb.w2 Cert.Cheb.wm1 (V c main_arg0) (V c main_v2) (V c main_v1) :=
  (dat3 (F := Ideal) V c).arrAt_eq_of_cover 3 (sum3_G V c) (fun t hf => flushed3_eq V c t hf) cover3

end Cert.KernelIdeal.Hand

end
-- ==== Proof.KI.FinalVal.lean ====
import proofs.«115948_j41927470743646_1_alg».proof.Proof.KI.FinalDefs
import proofs.«115948_j41927470743646_1_alg».proof.Proof.Spec
import proofs.«115948_j41927470743646_1_alg».proof.Proof.LibPlainProduct
import proofs.«115948_j41927470743646_1_alg».proof.Proof.LibSums
import proofs.«115948_j41927470743646_1_alg».proof.Proof.LibTile
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen
open scoped BigOperators

theorem prod_at (a : Vec Ideal S1024x256 .f32) (b : Vec Ideal S256x256 .f32) (p : Fin 1024) (q : Fin 256) :
    matmul (F := Ideal) dot_S1024x256_S256x256_S1024x256_1_0_0_1_n_n none
        (truncf .bf16 a bitsLt_bf16_f32) (truncf .bf16 b bitsLt_bf16_f32)
        (constant (F := Ideal) S1024x256 .f32 0x00000000#32) (ix2 p q)
      = ∑ k : Fin 256, a (ix2 p k) * b (ix2 k q) := by
  rw [show dot_S1024x256_S256x256_S1024x256_1_0_0_1_n_n = DotDims.plain 1024 256 256 from rfl]
  exact Cert.PlainProduct.matmul_zero_apply none _ _ p q

theorem pay2_at (v0 : Vec Ideal S1024x256 .f32) (v2 : Vec Ideal S256x256 .f32) (v5 : Vec Ideal S1024x256 .f32)
    (v8 : Vec Ideal S256x256 .f32) (v12 : Vec Ideal S1024x256 .f32) (v15 : Vec Ideal S256x256 .f32)
    (v19 : Vec Ideal S1024x256 .f32) (v22 : Vec Ideal S256x256 .f32) (v26 : Vec Ideal S1024x256 .f32)
    (v29 : Vec Ideal S256x256 .f32) (p : Fin 1024) (q : Fin 256) :
    k4_pay2 (F := Ideal) v0 v2 v5 v8 v12 v15 v19 v22 v26 v29 (ix2 p q)
      = (∑ k : Fin 256, v0 (ix2 p k) * v2 (ix2 k q)) + (∑ k : Fin 256, v5 (ix2 p k) * v8 (ix2 k q))
        + (∑ k : Fin 256, v12 (ix2 p k) * v15 (ix2 k q)) + (∑ k : Fin 256, v19 (ix2 p k) * v22 (ix2 k q))
        + (∑ k : Fin 256, v26 (ix2 p k) * v29 (ix2 k q)) := by
  unfold k4_pay2
  simp only [shapeCast_self]
  rw [addf_apply, addf_apply, addf_apply, addf_apply, prod_at, prod_at, prod_at, prod_at, prod_at]

theorem pay1_at (v32 : FVec Ideal S1024x256 .f32) (v33 : Vec Ideal S1x256 .f32) (p : Fin 1024) (q : Fin 256) :
    k4_pay1 (F := Ideal) v32 v33 (ix2 p q)
      = max (v32 (ix2 p q) + v33 (ix2 (0 : Fin 1) q)) (Ideal.ofBits .f32 0x00000000#32) := by
  unfold k4_pay1
  simp only [shapeCast_self]
  rw [maximumf_apply, addf_apply, broadcast_apply, broadcastTo_1b_ab_apply]
  rfl

variable (V : (c : Dev nD) → (b : Ref sig .tc) → Buf (Elt Ideal) ((c : Thread nD τ).loc b))

theorem lt8 (t : Fin cfg4.N) : t.val < 8 := lt_of_lt_of_eq t.isLt N_4

theorem idx4_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

abbrev row (t : Fin cfg4.N) (p : Fin 1024) : Fin 8192 := ⟨1024 * t.val + p.val, by have := lt8 t; omega⟩

theorem iblk4_0_at (c : Dev nD) (t : Fin cfg4.N) (p : Fin 1024) (k : Fin 256) :
    iblk4 V c 0 t (ix2 p k) = V c main_arg1 (ix2 (row t p) k) := by
  have h := idx4_facts t
  exact congrArg (V c main_arg1) (Cert.Tile.emb ((cfg4.win 0).blk t).view.emb (win4_0.index t) (fun _ _ => rfl) p k (by omega) (by omega))

theorem iblk4_1_at (c : Dev nD) (t : Fin cfg4.N) (p : Fin 1024) (k : Fin 256) :
    iblk4 V c 1 t (ix2 p k) = V c main_v0 (ix2 (row t p) k) := by
  have h := idx4_facts t
  exact congrArg (V c main_v0) (Cert.Tile.emb ((cfg4.win 1).blk t).view.emb (win4_1.index t) (fun _ _ => rfl) p k (by omega) (by omega))

theorem iblk4_2_at (c : Dev nD) (t : Fin cfg4.N) (p : Fin 1024) (k : Fin 256) :
    iblk4 V c 2 t (ix2 p k) = V c main_v1 (ix2 (row t p) k) := by
  have h := idx4_facts t
  exact congrArg (V c main_v1) (Cert.Tile.emb ((cfg4.win 2).blk t).view.emb (win4_2.index t) (fun _ _ => rfl) p k (by omega) (by omega))

theorem iblk4_3_at (c : Dev nD) (t : Fin cfg4.N) (p : Fin 1024) (k : Fin 256) :
    iblk4 V c 3 t (ix2 p k) = V c main_v2 (ix2 (row t p) k) := by
  have h := idx4_facts t
  exact congrArg (V c main_v2) (Cert.Tile.emb ((cfg4.win 3).blk t).view.emb (win4_3.index t) (fun _ _ => rfl) p k (by omega) (by omega))

theorem iblk4_4_at (c : Dev nD) (t : Fin cfg4.N) (p : Fin 1024) (k : Fin 256) :
    iblk4 V c 4 t (ix2 p k) = V c main_v3 (ix2 (row t p) k) := by
  have h := idx4_facts t
  exact congrArg (V c main_v3) (Cert.Tile.emb ((cfg4.win 4).blk t).view.emb (win4_4.index t) (fun _ _ => rfl) p k (by omega) (by omega))

theorem iblk4_5_at (c : Dev nD) (t : Fin cfg4.N) (r : Fin 1280) (q : Fin 256) :
    iblk4 V c 5 t (ix2 r q) = V c main_arg2 (ix2 r q) := by
  have h := idx4_facts t
  exact congrArg (V c main_arg2) (Cert.Tile.emb ((cfg4.win 5).blk t).view.emb (win4_5.index t) (fun _ _ => rfl) r q (by omega) (by omega))

theorem iblk4_6_at (c : Dev nD) (t : Fin cfg4.N) (r : Fin 1) (q : Fin 256) :
    iblk4 V c 6 t (ix2 r q) = V c main_v4 (ix2 r q) := by
  have h := idx4_facts t
  exact congrArg (V c main_v4) (Cert.Tile.emb ((cfg4.win 6).blk t).view.emb (win4_6.index t) (fun _ _ => rfl) r q (by omega) (by omega))

theorem ld4_of (w : Vec Ideal S1280x256 .f32) (i j : S1280x256.Idx) (ha : (i 0).val = (j 0).val) (hb : (i 1).val = (j 1).val) : w i = w j :=
  congrArg w (funext fun a => Fin.ext (match a with | ⟨0, _⟩ => ha | ⟨1, _⟩ => hb))

theorem ld4_at (w : Vec Ideal S1280x256 .f32) (s : Fin 5) (h) (k q : Fin 256) :
    View.ld w (Rect.unit (s := S1280x256) ![256 * s.val, 0] S256x256.size h) (ix2 k q)
      = w (ix2 (⟨256 * s.val + k.val, by have := s.isLt; omega⟩ : Fin 1280) q) :=
  ld4_of w _ _ (by show 256 * s.val + 1 * k.val = 256 * s.val + k.val; omega) (by show 0 + 1 * q.val = q.val; omega)

theorem out4_at_of (x0 x1 x2 x3 x4 : Vec Ideal S1024x256 .f32) (w : Vec Ideal S1280x256 .f32) (b : Vec Ideal S1x256 .f32)
    (T0 T1 T2 T3 T4 : Cert.Cheb.SND.Idx → EReal) (W : Cert.Cheb.SWD.Idx → EReal) (B : Cert.Cheb.S1B.Idx → EReal)
    (r : Fin 8192) (p : Fin 1024) (q : Fin 256)
    (h0 : ∀ k : Fin 256, x0 (ix2 p k) = T0 (ix2 r k)) (h1 : ∀ k : Fin 256, x1 (ix2 p k) = T1 (ix2 r k))
    (h2 : ∀ k : Fin 256, x2 (ix2 p k) = T2 (ix2 r k)) (h3 : ∀ k : Fin 256, x3 (ix2 p k) = T3 (ix2 r k))
    (h4 : ∀ k : Fin 256, x4 (ix2 p k) = T4 (ix2 r k))
    (hw : ∀ (s : Fin 1280) (q : Fin 256), w (ix2 s q) = W (ix2 s q)) (hb : ∀ q : Fin 256, b (ix2 (0 : Fin 1) q) = B (ix2 (0 : Fin 1) q)) :
    out4 x0 x1 x2 x3 x4 w b (ix2 p q) = Cert.Cheb.dense T0 T1 T2 T3 T4 W B (ix2 r q) := by
  unfold out4
  rw [pay1_at, pay2_at]
  have e0 : (∑ k : Fin 256, x0 (ix2 p k) * View.ld w rW0 (ix2 k q)) = Cert.Cheb.slab 0 T0 W (ix2 r q) :=
    Finset.sum_congr rfl fun k _ => by rw [h0, (show View.ld w rW0 (ix2 k q) = _ from ld4_at w 0 _ k q), hw]
  have e1 : (∑ k : Fin 256, x1 (ix2 p k) * View.ld w rW1 (ix2 k q)) = Cert.Cheb.slab 1 T1 W (ix2 r q) :=
    Finset.sum_congr rfl fun k _ => by rw [h1, (show View.ld w rW1 (ix2 k q) = _ from ld4_at w 1 _ k q), hw]
  have e2 : (∑ k : Fin 256, x2 (ix2 p k) * View.ld w rW2 (ix2 k q)) = Cert.Cheb.slab 2 T2 W (ix2 r q) :=
    Finset.sum_congr rfl fun k _ => by rw [h2, (show View.ld w rW2 (ix2 k q) = _ from ld4_at w 2 _ k q), hw]
  have e3 : (∑ k : Fin 256, x3 (ix2 p k) * View.ld w rW3 (ix2 k q)) = Cert.Cheb.slab 3 T3 W (ix2 r q) :=
    Finset.sum_congr rfl fun k _ => by rw [h3, (show View.ld w rW3 (ix2 k q) = _ from ld4_at w 3 _ k q), hw]
  have e4 : (∑ k : Fin 256, x4 (ix2 p k) * View.ld w rW4 (ix2 k q)) = Cert.Cheb.slab 4 T4 W (ix2 r q) :=
    Finset.sum_congr rfl fun k _ => by rw [h4, (show View.ld w rW4 (ix2 k q) = _ from ld4_at w 4 _ k q), hw]
  rw [e0, e1, e2, e3, e4, hb]
  rfl

abbrev G4 (c : Dev nD) : Cert.Cheb.SND.Idx → EReal :=
  Cert.Cheb.dense (V c main_arg1) (V c main_v0) (V c main_v1) (V c main_v2) (V c main_v3) (V c main_arg2) (V c main_v4)

theorem out4_at (c : Dev nD) (t : Fin cfg4.N) (p : Fin 1024) (q : Fin 256) :
    out4 (iblk4 V c 0 t) (iblk4 V c 1 t) (iblk4 V c 2 t) (iblk4 V c 3 t) (iblk4 V c 4 t) (iblk4 V c 5 t) (iblk4 V c 6 t) (ix2 p q)
      = G4 V c (ix2 (row t p) q) :=
  out4_at_of _ _ _ _ _ _ _ _ _ _ _ _ _ _ (row t p) p q (iblk4_0_at V c t p) (iblk4_1_at V c t p) (iblk4_2_at V c t p)
    (iblk4_3_at V c t p) (iblk4_4_at V c t p) (iblk4_5_at V c t) (iblk4_6_at V c t 0)

theorem emb4_7 (t : Fin cfg4.N) (p : Fin 1024) (q : Fin 256) :
    ((cfg4.win 7).blk t).view.emb (ix2 p q) = ix2 (row t p) q := by
  have h := idx4_facts t
  exact Cert.Tile.emb _ (win4_7.index t) (fun _ _ => rfl) p q (by omega) (by omega)

theorem flushed4_eq (c : Dev nD) (t : Fin cfg4.N) :
    (dat4 (F := Ideal) V c).flushed 7 t = ((cfg4.win 7).blk t).view.read (Elt Ideal) (G4 V c) := by
  show (cfg4.win 7).cut (grid4.coords t) ((dat4 (F := Ideal) V c).after 7 t) = _
  rw [after4_7]
  funext j
  obtain ⟨p, q, rfl⟩ : ∃ (p : Fin 1024) (q : Fin 256), j = ix2 p q := ⟨j 0, j 1, eq_ix2 j⟩
  show out4 (iblk4 V c 0 t) (iblk4 V c 1 t) (iblk4 V c 2 t) (iblk4 V c 3 t) (iblk4 V c 4 t) (iblk4 V c 5 t) (iblk4 V c 6 t) (ix2 p q)
    = G4 V c (((cfg4.win 7).blk t).view.emb (ix2 p q))
  rw [emb4_7, out4_at]

theorem mem_blk4 (t : Fin cfg4.N) (i : S8192x256.Idx) :
    i ∈ ((cfg4.win 7).blk t).view.set ↔ ∀ a : Fin 2, win4_7.index t a * S1024x256.size a ≤ (i a).val ∧ (i a).val < win4_7.index t a * S1024x256.size a + S1024x256.size a := by
  show i ∈ ((View.whole main_v5).slice (win4_7.rect t)).set ↔ _
  rw [View.set_slice_whole, Rect.mem_set_unit]
  exact Iff.rfl

theorem cover4 (i : S8192x256.Idx) : ∃ t : Fin cfg4.N, (cfg4.win 7).flush t = true ∧ i ∈ ((cfg4.win 7).blk t).view.set := by
  have hi0 : (i 0).val < 8192 := (i 0).isLt
  have hi1 : (i 1).val < 256 := (i 1).isLt
  let t : Fin cfg4.N := ⟨(i 0).val / 1024, lt_of_lt_of_eq (by omega : (i 0).val / 1024 < 8) N_4.symm⟩
  refine ⟨t, flush4_7 t, ?_⟩
  rw [mem_blk4]
  have h := idx4_facts t
  have ht : t.val = (i 0).val / 1024 := rfl
  intro a
  match a with
  | ⟨0, _⟩ => show win4_7.index t (0 : Fin 2) * 1024 ≤ (i 0).val ∧ (i 0).val < win4_7.index t (0 : Fin 2) * 1024 + 1024; omega
  | ⟨1, _⟩ => show win4_7.index t (1 : Fin 2) * 256 ≤ (i 1).val ∧ (i 1).val < win4_7.index t (1 : Fin 2) * 256 + 256; omega

/-- Each point writes its row tile of the dense map of the five features, and the eight tiles fill the array. -/
theorem arr4_eq (c : Dev nD) :
    (dat4 (F := Ideal) V c).arrAt 7 cfg4.N
      = Cert.Cheb.dense (V c main_arg1) (V c main_v0) (V c main_v1) (V c main_v2) (V c main_v3) (V c main_arg2) (V c main_v4) :=
  (dat4 (F := Ideal) V c).arrAt_eq_of_cover 7 (G4 V c) (fun t _ => flushed4_eq V c t) cover4

end Cert.KernelIdeal.Hand

end
-- ==== Proof.KI.Chain.lean ====
import proofs.«115948_j41927470743646_1_alg».proof.Proof.KI.Fold
import proofs.«115948_j41927470743646_1_alg».proof.Proof.KI.ChebVal0
import proofs.«115948_j41927470743646_1_alg».proof.Proof.KI.ChebVal1
import proofs.«115948_j41927470743646_1_alg».proof.Proof.KI.ChebVal2
import proofs.«115948_j41927470743646_1_alg».proof.Proof.KI.ChebVal3
import proofs.«115948_j41927470743646_1_alg».proof.Proof.KI.FinalVal
import proofs.«115948_j41927470743646_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.ShloMosaic.ValueIdx
open Idealize.ShloMosaic.Pipeline (Dat Cfg Window)
open Cert.KernelIdeal Cert.KernelIdeal.Gen

variable (m : (ℓ : Loc nD τ sig) → Buf (Elt Ideal) ℓ)

abbrev aL (c : Dev nD) : Cert.Cheb.SNN.Idx → EReal := m ((c : Thread nD τ).loc main_arg0)
abbrev aX (c : Dev nD) : Cert.Cheb.SND.Idx → EReal := m ((c : Thread nD τ).loc main_arg1)
abbrev aW (c : Dev nD) : Cert.Cheb.SWD.Idx → EReal := m ((c : Thread nD τ).loc main_arg2)
abbrev aB (c : Dev nD) : Cert.Cheb.SB.Idx → EReal := m ((c : Thread nD τ).loc main_arg3)

theorem W4_arg (c : Dev nD) (r : Ref sig .tc) (h0 : r ≠ main_v0) (h1 : r ≠ main_v1) (h2 : r ≠ main_v2) (h3 : r ≠ main_v3) :
    W4 m c r = m ((c : Thread nD τ).loc r) :=
  (W4_of m c r h3).trans <| (W3_of m c r h2).trans <| (W2_of m c r h1).trans <| (W1_of m c r h0).trans rfl

theorem o0_eq (c : Dev nD) : o0 m c = Cert.Cheb.f1 (aL m c) (aX m c) := by
  unfold o0; rw [arr0_eq]; rfl

theorem U1_arg0 (c : Dev nD) : U1 m c main_arg0 = aL m c := (W1_of m c main_arg0 (by decide)).trans rfl
theorem U1_arg1 (c : Dev nD) : U1 m c main_arg1 = aX m c := (W1_of m c main_arg1 (by decide)).trans rfl
theorem U1_v0 (c : Dev nD) : U1 m c main_v0 = o0 m c := W1_out m c

theorem o1_eq (c : Dev nD) : o1 m c = Cert.Cheb.f2 (aL m c) (aX m c) := by
  unfold o1; rw [arr1_eq, U1_arg0, U1_arg1, U1_v0, o0_eq m c]; rfl

theorem U2_arg0 (c : Dev nD) : U2 m c main_arg0 = aL m c :=
  (W2_of m c main_arg0 (by decide)).trans <| (W1_of m c main_arg0 (by decide)).trans rfl
theorem U2_v0 (c : Dev nD) : U2 m c main_v0 = o0 m c := (W2_of m c main_v0 (by decide)).trans (W1_out m c)
theorem U2_v1 (c : Dev nD) : U2 m c main_v1 = o1 m c := W2_out m c

theorem o2_eq (c : Dev nD) : o2 m c = Cert.Cheb.f3 (aL m c) (aX m c) := by
  unfold o2; rw [arr2_eq, U2_arg0, U2_v0, U2_v1, o0_eq m c, o1_eq m c]; rfl

theorem U3_arg0 (c : Dev nD) : U3 m c main_arg0 = aL m c :=
  (W3_of m c main_arg0 (by decide)).trans <| (W2_of m c main_arg0 (by decide)).trans <| (W1_of m c main_arg0 (by decide)).trans rfl
theorem U3_v1 (c : Dev nD) : U3 m c main_v1 = o1 m c := (W3_of m c main_v1 (by decide)).trans (W2_out m c)
theorem U3_v2 (c : Dev nD) : U3 m c main_v2 = o2 m c := W3_out m c

theorem o3_eq (c : Dev nD) : o3 m c = Cert.Cheb.f4 (aL m c) (aX m c) := by
  unfold o3; rw [arr3_eq, U3_arg0, U3_v1, U3_v2, o1_eq m c, o2_eq m c]; rfl

theorem biasRow_cast (b : Cert.Cheb.SB.Idx → EReal) (h : S256.ShapeCasts S1x256) (i : S1x256.Idx) :
    shapeCast S1x256 b h i = Cert.Cheb.biasRow b i := by
  have hi : (i 0).val = 0 := Nat.lt_one_iff.mp (i 0).isLt
  rw [shapeCast_apply (s := S256) (t := S1x256) b h i (ix1 (i 1)) (by
    rw [Shape.rowMajor_val_one, Shape.rowMajor_val_two]
    show (i 1).val = (i 0).val * 256 + (i 1).val
    omega)]
  rfl

theorem U5_v4 (c : Dev nD) : (U5 m c main_v4 : Cert.Cheb.S1B.Idx → EReal) = Cert.Cheb.biasRow (aB m c) := by
  show StableHlo.after hostOps4 (W4 m c) (Proc.devRef .tc main_v4) = _
  dsimp only [hostOps4]
  after_results
  funext i
  show shapeCast S1x256 (W4 m c (Proc.devRef .tc main_arg3)) shapeCasts_S256_S1x256 i = _
  rw [W4_arg m c main_arg3 (by decide) (by decide) (by decide) (by decide)]
  exact biasRow_cast (aB m c) shapeCasts_S256_S1x256 i

theorem U5_arg1 (c : Dev nD) : U5 m c main_arg1 = aX m c :=
  (W5_of m c main_arg1 (by decide)).trans (W4_arg m c main_arg1 (by decide) (by decide) (by decide) (by decide))
theorem U5_arg2 (c : Dev nD) : U5 m c main_arg2 = aW m c :=
  (W5_of m c main_arg2 (by decide)).trans (W4_arg m c main_arg2 (by decide) (by decide) (by decide) (by decide))
theorem U5_v0 (c : Dev nD) : U5 m c main_v0 = o0 m c :=
  (W5_of m c main_v0 (by decide)).trans <| (W4_of m c main_v0 (by decide)).trans <| (W3_of m c main_v0 (by decide)).trans <|
    (W2_of m c main_v0 (by decide)).trans (W1_out m c)
theorem U5_v1 (c : Dev nD) : U5 m c main_v1 = o1 m c :=
  (W5_of m c main_v1 (by decide)).trans <| (W4_of m c main_v1 (by decide)).trans <| (W3_of m c main_v1 (by decide)).trans (W2_out m c)
theorem U5_v2 (c : Dev nD) : U5 m c main_v2 = o2 m c :=
  (W5_of m c main_v2 (by decide)).trans <| (W4_of m c main_v2 (by decide)).trans (W3_out m c)
theorem U5_v3 (c : Dev nD) : U5 m c main_v3 = o3 m c :=
  (W5_of m c main_v3 (by decide)).trans (W4_out m c)

/-- Each region's output is one step over the outputs before it, so the last array is the layer of the four arguments. -/
theorem o4_eq (c : Dev nD) :
    o4 m c = Cert.Cheb.layer (m ((c : Thread nD τ).loc main_arg0)) (m ((c : Thread nD τ).loc main_arg1)) (m ((c : Thread nD τ).loc main_arg2))
              (Cert.Cheb.biasRow (m ((c : Thread nD τ).loc main_arg3))) := by
  unfold o4
  rw [arr4_eq, U5_arg1, U5_arg2, U5_v0, U5_v1, U5_v2, U5_v3, U5_v4, o0_eq m c, o1_eq m c, o2_eq m c, o3_eq m c]
  rfl

end Cert.KernelIdeal.Hand

end
-- ==== Proof.RefValue.lean ====
import proofs.«115948_j41927470743646_1_alg».proof.Proof.Gen.ReferenceIdeal.Run
import proofs.«115948_j41927470743646_1_alg».proof.Proof.Gen.ReferenceIdeal.Read
import proofs.«115948_j41927470743646_1_alg».proof.Proof.Spec
import proofs.«115948_j41927470743646_1_alg».proof.Proof.LibPlainProduct
import proofs.«115948_j41927470743646_1_alg».proof.Proof.LibSums
import Idealize.ShloMosaic.Lib.Pipeline.Value
import Idealize.ShloMosaic.Lib.ValueIdx
import Idealize.ShloMosaic.PureOps.Ideal.Laws

noncomputable section

namespace Cert.RefValue

open Idealize.ShloMosaic Idealize.ShloMosaic.ValueIdx Idealize.ShloMosaic.TcCoe Idealize.SL.Sem Cert.ReferenceIdeal
open Cert.ReferenceIdeal.Read Cert.Cheb
open scoped BigOperators

theorem w0_eq : Cert.Cheb.w0 = 0 := Ideal.ofBits_zero_f32

theorem w1_eq : Cert.Cheb.w1 = 1 := by
  simp [Ideal.ofBits, Ideal.ieee]
  norm_cast
  norm_num

theorem wm1_eq : Cert.Cheb.wm1 = -1 := by
  simp [Ideal.ofBits, Ideal.ieee]
  norm_cast
  norm_num

theorem step_one_zero (L : Cert.Cheb.SNN.Idx → EReal) (T T' : Cert.Cheb.SND.Idx → EReal) :
    Cert.Cheb.step Cert.Cheb.w1 Cert.Cheb.w0 L T T' = Cert.Cheb.lap L T := by
  funext i
  show Cert.Cheb.w1 * Cert.Cheb.lap L T i + Cert.Cheb.w0 * T' i = Cert.Cheb.lap L T i
  rw [w1_eq, w0_eq, one_mul, zero_mul, add_zero]

theorem step_two_neg (L : Cert.Cheb.SNN.Idx → EReal) (T T' : Cert.Cheb.SND.Idx → EReal) :
    Cert.Cheb.step Cert.Cheb.w2 Cert.Cheb.wm1 L T T' = fun i => Cert.Cheb.w2 * Cert.Cheb.lap L T i - T' i := by
  funext i
  show Cert.Cheb.w2 * Cert.Cheb.lap L T i + Cert.Cheb.wm1 * T' i = Cert.Cheb.w2 * Cert.Cheb.lap L T i - T' i
  rw [wm1_eq, neg_one_mul, sub_eq_add_neg]

theorem f1_eq (L : SNN.Idx → EReal) (x : SND.Idx → EReal) : f1 L x = lap L x := step_one_zero L x x
theorem f2_eq (L : SNN.Idx → EReal) (x : SND.Idx → EReal) :
    f2 L x = fun i => w2 * lap L (f1 L x) i - x i := step_two_neg L (f1 L x) x
theorem f3_eq (L : SNN.Idx → EReal) (x : SND.Idx → EReal) :
    f3 L x = fun i => w2 * lap L (f2 L x) i - f1 L x i := step_two_neg L (f2 L x) (f1 L x)
theorem f4_eq (L : SNN.Idx → EReal) (x : SND.Idx → EReal) :
    f4 L x = fun i => w2 * lap L (f3 L x) i - f2 L x i := step_two_neg L (f3 L x) (f2 L x)

theorem lidx_lap (p : Fin 8192) (q : Fin 256) (k : Fin 8192) : lidx_main_v0 (ix2 p q) k = ix2 p k :=
  funext fun a => Fin.ext (by match a with | ⟨0, _⟩ => rfl | ⟨1, _⟩ => rfl)

theorem ridx_lap (p : Fin 8192) (q : Fin 256) (k : Fin 8192) : ridx_main_v0 (ix2 p q) k = ix2 k q :=
  funext fun a => Fin.ext (by match a with | ⟨0, _⟩ => rfl | ⟨1, _⟩ => rfl)

theorem dot_lap (L : SNN.Idx → EReal) (T : SND.Idx → EReal) : val_main_v0 (F := Ideal) L T = lap L T := by
  funext i
  obtain ⟨p, q, rfl⟩ : ∃ (p : Fin 8192) (q : Fin 256), i = ix2 p q := ⟨i 0, i 1, eq_ix2 i⟩
  rw [val_main_v0_apply]
  simp only [lidx_lap, ridx_lap]
  rfl

theorem two_v2 (i : S8192x256.Idx) : val_main_v2 (F := Ideal) i = w2 := by
  rw [val_main_v2_apply, val_main_cst_apply]; rfl
theorem two_v6 (i : S8192x256.Idx) : val_main_v6 (F := Ideal) i = w2 := by
  rw [val_main_v6_apply, val_main_cst_0_apply]; rfl
theorem two_v10 (i : S8192x256.Idx) : val_main_v10 (F := Ideal) i = w2 := by
  rw [val_main_v10_apply, val_main_cst_1_apply]; rfl

theorem v0_eq (L : SNN.Idx → EReal) (x : SND.Idx → EReal) : val_main_v0 (F := Ideal) L x = f1 L x :=
  (dot_lap L x).trans (f1_eq L x).symm

theorem v4_eq (L : SNN.Idx → EReal) (x : SND.Idx → EReal) : val_main_v4 (F := Ideal) L x = f2 L x := by
  have h1 : val_main_v1 (F := Ideal) L x = lap L (f1 L x) := by
    show val_main_v0 (F := Ideal) L (val_main_v0 (F := Ideal) L x) = _
    rw [dot_lap, v0_eq]
  funext i
  rw [f2_eq, val_main_v4_apply, val_main_v3_apply, two_v2, h1]
  rfl

theorem v8_eq (L : SNN.Idx → EReal) (x : SND.Idx → EReal) : val_main_v8 (F := Ideal) L x = f3 L x := by
  have h1 : val_main_v5 (F := Ideal) L x = lap L (f2 L x) := by
    show val_main_v0 (F := Ideal) L (val_main_v4 (F := Ideal) L x) = _
    rw [v4_eq, dot_lap]
  funext i
  rw [f3_eq, val_main_v8_apply, val_main_v7_apply, two_v6, h1, v0_eq]
  rfl

theorem v12_eq (L : SNN.Idx → EReal) (x : SND.Idx → EReal) : val_main_v12 (F := Ideal) L x = f4 L x := by
  have h1 : val_main_v9 (F := Ideal) L x = lap L (f3 L x) := by
    show val_main_v0 (F := Ideal) L (val_main_v8 (F := Ideal) L x) = _
    rw [v8_eq, dot_lap]
  funext i
  rw [f4_eq, val_main_v12_apply, val_main_v11_apply, two_v10, h1, v4_eq]
  rfl

abbrev pieces (y0 y1 y2 y3 y4 : SND.Idx → EReal) : List ((s : Shape) × (s.Idx → EReal)) :=
  [⟨S8192x256, y0⟩, ⟨S8192x256, y1⟩, ⟨S8192x256, y2⟩, ⟨S8192x256, y3⟩, ⟨S8192x256, y4⟩]

def cat5 (y0 y1 y2 y3 y4 : SND.Idx → EReal) : S8192x1280.Idx → EReal :=
  concatenate S8192x1280 1 (pieces y0 y1 y2 y3 y4)
    Gen.concatenates_S8192x256_S8192x256_S8192x256_S8192x256_S8192x256_S8192x1280_d1

theorem cat5_block (y0 y1 y2 y3 y4 : SND.Idx → EReal) (p : Fin 8192) (t : Fin 5) (r : Fin 256)
    (hlt : 256 * t.val + r.val < 1280) :
    cat5 y0 y1 y2 y3 y4 (ix2 p ⟨256 * t.val + r.val, hlt⟩) = (![y0, y1, y2, y3, y4] t) (ix2 p r) := by
  have hi : ∀ (c : Fin 1280) (b : Fin S8192x256.rank),
      b.cast (rfl : S8192x256.rank = S8192x1280.rank) ≠ (1 : Fin S8192x1280.rank) →
      ((ix2 p r : S8192x256.Idx) b).val = ((ix2 p c : S8192x1280.Idx) (b.cast rfl)).val := fun c b hb => by
    match b with
    | ⟨0, _⟩ => rfl
    | ⟨1, _⟩ => exact absurd rfl hb
  unfold cat5
  match t, hlt with
  | ⟨0, _⟩, hlt =>
    exact concatenate_apply_piece 1 (pieces y0 y1 y2 y3 y4) _ (ix2 p ⟨256 * 0 + r.val, hlt⟩) 0 (by show (0 : ℕ) < 5; decide) S8192x256 y0 rfl rfl (256 * 0) rfl (ix2 p r) (hi _) rfl
  | ⟨1, _⟩, hlt =>
    exact concatenate_apply_piece 1 (pieces y0 y1 y2 y3 y4) _ (ix2 p ⟨256 * 1 + r.val, hlt⟩) 1 (by show (1 : ℕ) < 5; decide) S8192x256 y1 rfl rfl (256 * 1) rfl (ix2 p r) (hi _) rfl
  | ⟨2, _⟩, hlt =>
    exact concatenate_apply_piece 1 (pieces y0 y1 y2 y3 y4) _ (ix2 p ⟨256 * 2 + r.val, hlt⟩) 2 (by show (2 : ℕ) < 5; decide) S8192x256 y2 rfl rfl (256 * 2) rfl (ix2 p r) (hi _) rfl
  | ⟨3, _⟩, hlt =>
    exact concatenate_apply_piece 1 (pieces y0 y1 y2 y3 y4) _ (ix2 p ⟨256 * 3 + r.val, hlt⟩) 3 (by show (3 : ℕ) < 5; decide) S8192x256 y3 rfl rfl (256 * 3) rfl (ix2 p r) (hi _) rfl
  | ⟨4, _⟩, hlt =>
    exact concatenate_apply_piece 1 (pieces y0 y1 y2 y3 y4) _ (ix2 p ⟨256 * 4 + r.val, hlt⟩) 4 (by show (4 : ℕ) < 5; decide) S8192x256 y4 rfl rfl (256 * 4) rfl (ix2 p r) (hi _) rfl

theorem cat5_dense (y0 y1 y2 y3 y4 : SND.Idx → EReal) (W : SWD.Idx → EReal) (p : Fin 8192) (q : Fin 256) :
    ∑ k : Fin 1280, cat5 y0 y1 y2 y3 y4 (ix2 p k) * W (ix2 k q)
      = slab 0 y0 W (ix2 p q) + slab 1 y1 W (ix2 p q) + slab 2 y2 W (ix2 p q) + slab 3 y3 W (ix2 p q)
          + slab 4 y4 W (ix2 p q) := by
  have hb : ∀ t : Fin 5,
      (∑ r : Fin 256, cat5 y0 y1 y2 y3 y4 (ix2 p ⟨256 * t.val + r.val, Cert.Sums.block_index_lt t.isLt r.isLt⟩)
          * W (ix2 ⟨256 * t.val + r.val, Cert.Sums.block_index_lt t.isLt r.isLt⟩ q))
        = slab t (![y0, y1, y2, y3, y4] t) W (ix2 p q) := fun t =>
    Finset.sum_congr rfl fun r _ => by
      rw [cat5_block]
  refine (Cert.Sums.sum_blocks 5 256 (fun k : Fin 1280 => cat5 y0 y1 y2 y3 y4 (ix2 p k) * W (ix2 k q))).trans ?_
  rw [Fin.sum_univ_five, hb 0, hb 1, hb 2, hb 3, hb 4]
  rfl

theorem v13_eq (L : SNN.Idx → EReal) (x : SND.Idx → EReal) :
    val_main_v13 (F := Ideal) L x = cat5 x (f1 L x) (f2 L x) (f3 L x) (f4 L x) := by
  rw [← v0_eq, ← v4_eq, ← v8_eq, ← v12_eq]
  rfl

theorem lidx_dense (p : Fin 8192) (q : Fin 256) (k : Fin 1280) : lidx_main_v14 (ix2 p q) k = ix2 p k :=
  funext fun a => Fin.ext (by match a with | ⟨0, _⟩ => rfl | ⟨1, _⟩ => rfl)
theorem ridx_dense (p : Fin 8192) (q : Fin 256) (k : Fin 1280) : ridx_main_v14 (ix2 p q) k = ix2 k q :=
  funext fun a => Fin.ext (by match a with | ⟨0, _⟩ => rfl | ⟨1, _⟩ => rfl)

theorem bias_read (b : S256.Idx → EReal) (p : Fin 8192) (q : Fin 256) :
    val_main_v16 (F := Ideal) b (ix2 p q) = biasRow b (ix2 0 q) := by
  rw [val_main_v16_apply, val_main_v15_apply]
  show b _ = b _
  congr 1
  funext a
  match a with
  | ⟨0, _⟩ => rfl

theorem zero_read (i : S8192x256.Idx) : val_main_call0_v0 (F := Ideal) i = w0 := by
  rw [val_main_call0_v0_apply, val_main_call0_cst_apply]; rfl

theorem ref_eq_layer (L : SNN.Idx → EReal) (x : SND.Idx → EReal) (W : SWD.Idx → EReal) (b : S256.Idx → EReal) :
    val_main_v18 (F := Ideal) L x W b = layer L x W (biasRow b) := by
  funext i
  obtain ⟨p, q, rfl⟩ : ∃ (p : Fin 8192) (q : Fin 256), i = ix2 p q := ⟨i 0, i 1, eq_ix2 i⟩
  rw [val_main_v18_apply, val_main_v17_apply, val_main_v14_apply, zero_read, bias_read, v13_eq]
  simp only [lidx_dense, ridx_dense]
  rw [cat5_dense]
  rfl

theorem ref_value (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v18)
          = Cert.Cheb.layer (m ((c.tc : Thread nD τ).loc main_arg0)) (m ((c.tc : Thread nD τ).loc main_arg1)) (m ((c.tc : Thread nD τ).loc main_arg2)) (Cert.Cheb.biasRow (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono
    (fun _ h c => ⟨(h c).1.trans ((val_main_v18_eq (F := Ideal) (m ((c.tc : Thread nD τ).loc main_arg0))
        (m ((c.tc : Thread nD τ).loc main_arg1)) (m ((c.tc : Thread nD τ).loc main_arg2))
        (m ((c.tc : Thread nD τ).loc main_arg3))).trans (ref_eq_layer _ _ _ _)), (h c).2⟩)
    (Cert.ReferenceIdeal.Value.run (F := Ideal) m ρ)

end Cert.RefValue

end
-- ==== Proof.lean ====
import proofs.«115948_j41927470743646_1_alg».proof.Defs
import proofs.«115948_j41927470743646_1_alg».proof.Proof.Gen.Kernel
import proofs.«115948_j41927470743646_1_alg».proof.Proof.Gen.KernelIdeal
import proofs.«115948_j41927470743646_1_alg».proof.Proof.Gen.ReferenceIdeal
import proofs.«115948_j41927470743646_1_alg».proof.Proof.Gen.Pre_finite_inputs
import proofs.«115948_j41927470743646_1_alg».proof.Proof.KB.Run
import proofs.«115948_j41927470743646_1_alg».proof.Proof.KI.Run
import proofs.«115948_j41927470743646_1_alg».proof.Proof.KI.Chain
import proofs.«115948_j41927470743646_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.RefValue.ref_value m ρ)

theorem preserves : Cert.preserves_Kernel_KernelIdeal := trivial

/-- Both programs end at the layer function of the arguments: the kernel by chaining its regions' values, the reference by its composed term. -/
theorem algebraic : Cert.algebraic_KernelIdeal_ReferenceIdeal := by
  intro m ρ m' ρ' _ hagree
  refine ⟨fun c => Cert.KernelIdeal.Hand.o4 (F := Ideal) m c, Cert.KernelIdeal.Hand.run_value (F := Ideal) m ρ, ?_⟩
  refine (θ_run Cert.ReferenceIdeal.defs _ _).mono (fun _ h c => ⟨(h c).1.trans ?_, (h c).2⟩) (Cert.RefValue.ref_value m' ρ')
  rw [(hagree c).1, (hagree c).2.1, (hagree c).2.2.1, (hagree c).2.2.2]
  exact (Cert.KernelIdeal.Hand.o4_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
